-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S64x100 : Shape := ⟨2, ![64, 100]⟩
abbrev S128x128 : Shape := ⟨2, ![128, 128]⟩
abbrev S128 : Shape := ⟨1, ![128]⟩
abbrev S356x128 : Shape := ⟨2, ![356, 128]⟩
abbrev S128x200 : Shape := ⟨2, ![128, 200]⟩
abbrev S200 : Shape := ⟨1, ![200]⟩
abbrev S128x4000 : Shape := ⟨2, ![128, 4000]⟩
abbrev S4000 : Shape := ⟨1, ![4000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S356x128 : S_.BroadcastsInDim S356x128 (![] : Fin 0 → Fin S356x128.rank)
  reducesTo_S356x128_S_d0_1 : S356x128.ReducesTo [0, 1] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_
  bcast_S_S128x4000 : S_.BroadcastsInDim S128x4000 (![] : Fin 0 → Fin S128x4000.rank)
  reducesTo_S128x4000_S_d0_1 : S128x4000.ReducesTo [0, 1] S_
  bcast_S_S4000 : S_.BroadcastsInDim S4000 (![] : Fin 0 → Fin S4000.rank)
  reducesTo_S4000_S_d0 : S4000.ReducesTo [0] S_

variable [Facts]

def fn_part3 {F : FTy → Type} [FloatOps F] (main_arg14 : FVec F S128x4000 .f32) (main_arg15 : FVec F S4000 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S128x4000 .f32 := Host.absf main_arg14
  let main_cst_20 : FVec F S_ .f32 := constant S_ .f32 0x7F800000#32
  let main_v55 : FVec F S128x4000 .f32 := broadcastInDim S128x4000 ![] bcast_S_S128x4000 main_cst_20
  let main_v56 : IVec S128x4000 1 := cmpf .olt main_v54 main_v55
  let main_c_21 : IVec S_ 1 := constantI S_ 1 1#1
  let main_v57 : IVec S_ 1 := (fun x v => Host.reduce IntOp.andi x v reducesTo_S128x4000_S_d0_1 h_S_) main_v56 main_c_21
  let main_v58 : IVec S_ 1 := andi main_v53 main_v57
  let main_v59 : FVec F S4000 .f32 := Host.absf main_arg15
  let main_cst_22 : FVec F S_ .f32 := constant S_ .f32 0x7F800000#32
  let main_v60 : FVec F S4000 .f32 := broadcastInDim S4000 ![] bcast_S_S4000 main_cst_22
  let main_v61 : IVec S4000 1 := cmpf .olt main_v59 main_v60
  let main_c_23 : IVec S_ 1 := constantI S_ 1 1#1
  let main_v62 : IVec S_ 1 := (fun x v => Host.reduce IntOp.andi x v reducesTo_S4000_S_d0 h_S_) main_v61 main_c_23
  let main_v63 : IVec S_ 1 := andi main_v58 main_v62
  main_v63

def fn_part2 {F : FTy → Type} [FloatOps F] (main_arg10 : FVec F S128x128 .f32) (main_arg11 : FVec F S128 .f32) (main_arg12 : FVec F S128x200 .f32) (main_arg13 : FVec F S200 .f32) (main_arg14 : FVec F S128x4000 .f32) (main_arg15 : FVec F S4000 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x200 .f32 := Host.absf main_arg12
  let main_cst_16 : FVec F S_ .f32 := constant S_ .f32 0x7F800000#32
  let main_v45 : FVec F S128x200 .f32 := broadcastInDim S128x200 ![] bcast_S_S128x200 main_cst_16
  let main_v46 : IVec S128x200 1 := cmpf .olt main_v44 main_v45
  let main_c_17 : IVec S_ 1 := constantI S_ 1 1#1
  let main_v47 : IVec S_ 1 := (fun x v => Host.reduce IntOp.andi x v reducesTo_S128x200_S_d0_1 h_S_) main_v46 main_c_17
  let main_v48 : IVec S_ 1 := andi main_v43 main_v47
  let main_v49 : FVec F S200 .f32 := Host.absf main_arg13
  let main_cst_18 : FVec F S_ .f32 := constant S_ .f32 0x7F800000#32
  let main_v50 : FVec F S200 .f32 := broadcastInDim S200 ![] bcast_S_S200 main_cst_18
  fn_part3 (F := F) main_arg14 main_arg15 main_v48 main_v49 main_v50

def fn_part1 {F : FTy → Type} [FloatOps F] (main_arg7 : FVec F S128 .f32) (main_arg8 : FVec F S356x128 .f32) (main_arg9 : FVec F S128 .f32) (main_arg10 : FVec F S128x128 .f32) (main_arg11 : FVec F S128 .f32) (main_arg12 : FVec F S128x200 .f32) (main_arg13 : FVec F S200 .f32) (main_arg14 : FVec F S128x4000 .f32) (main_arg15 : FVec F S4000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S356x128 .f32 := Host.absf main_arg8
  let main_cst_8 : FVec F S_ .f32 := constant S_ .f32 0x7F800000#32
  let main_v25 : FVec F S356x128 .f32 := broadcastInDim S356x128 ![] bcast_S_S356x128 main_cst_8
  let main_v26 : IVec S356x128 1 := cmpf .olt main_v24 main_v25
  let main_c_9 : IVec S_ 1 := constantI S_ 1 1#1
  let main_v27 : IVec S_ 1 := (fun x v => Host.reduce IntOp.andi x v reducesTo_S356x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x128 .f32) (main_arg1 : IVec S2x1000000 32) (main_arg2 : IVec S100000 32) (main_arg3 : IVec S64x100 32) (main_arg4 : FVec F S128x128 .f32) (main_arg5 : FVec F S128 .f32) (main_arg6 : FVec F S128x128 .f32) (main_arg7 : FVec F S128 .f32) (main_arg8 : FVec F S356x128 .f32) (main_arg9 : FVec F S128 .f32) (main_arg10 : FVec F S128x128 .f32) (main_arg11 : FVec F S128 .f32) (main_arg12 : FVec F S128x200 .f32) (main_arg13 : FVec F S200 .f32) (main_arg14 : FVec F S128x4000 .f32) (main_arg15 : FVec F S4000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S64x100 : Shape := ⟨2, ![64, 100]⟩
abbrev S128x128 : Shape := ⟨2, ![128, 128]⟩
abbrev S128 : Shape := ⟨1, ![128]⟩
abbrev S356x128 : Shape := ⟨2, ![356, 128]⟩
abbrev S128x200 : Shape := ⟨2, ![128, 200]⟩
abbrev S200 : Shape := ⟨1, ![200]⟩
abbrev S128x4000 : Shape := ⟨2, ![128, 4000]⟩
abbrev S4000 : Shape := ⟨1, ![4000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S10000x128 : Shape := ⟨2, ![10000, 128]⟩
abbrev S1100000x128 : Shape := ⟨2, ![1100000, 128]⟩
abbrev S1x128 : Shape := ⟨2, ![1, 128]⟩
abbrev S64x128 : Shape := ⟨2, ![64, 128]⟩
abbrev S64 : Shape := ⟨1, ![64]⟩
abbrev S100000x1 : Shape := ⟨2, ![100000, 1]⟩
abbrev S100352x128 : Shape := ⟨2, ![100352, 128]⟩
abbrev S100352 : Shape := ⟨1, ![100352]⟩
abbrev S1x100352 : Shape := ⟨2, ![1, 100352]⟩
abbrev S1x12544 : Shape := ⟨2, ![1, 12544]⟩
abbrev S12544x128 : Shape := ⟨2, ![12544, 128]⟩
abbrev S64x12544 : Shape := ⟨2, ![64, 12544]⟩
abbrev S64x1 : Shape := ⟨2, ![64, 1]⟩
abbrev S64x256 : Shape := ⟨2, ![64, 256]⟩
abbrev S64x356 : Shape := ⟨2, ![64, 356]⟩
abbrev S1x200 : Shape := ⟨2, ![1, 200]⟩
abbrev S1x4000 : Shape := ⟨2, ![1, 4000]⟩
abbrev S64x200 : Shape := ⟨2, ![64, 200]⟩
abbrev S64x4000 : Shape := ⟨2, ![64, 4000]⟩
abbrev S64x100x2 : Shape := ⟨3, ![64, 100, 2]⟩
abbrev S64x20x100x2 : Shape := ⟨4, ![64, 20, 100, 2]⟩
abbrev S64x100x1 : Shape := ⟨3, ![64, 100, 1]⟩
abbrev S64x20x100 : Shape := ⟨3, ![64, 20, 100]⟩
abbrev S64x20x100x1 : Shape := ⟨4, ![64, 20, 100, 1]⟩

abbrev nBuf : Space → Nat
  | .hbm => 159
  | .vmem => 27
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S64x100, .i32⟩
  | 4 => ⟨S128x128, .f32⟩
  | 5 => ⟨S128, .f32⟩
  | 6 => ⟨S128x128, .f32⟩
  | 7 => ⟨S128, .f32⟩
  | 8 => ⟨S356x128, .f32⟩
  | 9 => ⟨S128, .f32⟩
  | 10 => ⟨S128x128, .f32⟩
  | 11 => ⟨S128, .f32⟩
  | 12 => ⟨S128x200, .f32⟩
  | 13 => ⟨S200, .f32⟩
  | 14 => ⟨S128x4000, .f32⟩
  | 15 => ⟨S4000, .f32⟩
  | 16 => ⟨S1x1000000, .i32⟩
  | 17 => ⟨S1000000, .i32⟩
  | 18 => ⟨S1x1000000, .i32⟩
  | 19 => ⟨S1000000, .i32⟩
  | 20 => ⟨S100000, .i32⟩
  | 21 => ⟨S1100000, .i32⟩
  | 22 => ⟨S1100000, .i32⟩
  | 23 => ⟨S_, .f32⟩
  | 24 => ⟨S1100000, .f32⟩
  | 25 => ⟨S_, .f32⟩
  | 26 => ⟨S100000, .f32⟩
  | 27 => ⟨S1100000x1, .i32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S128x128, .bf16⟩
  | 50 => ⟨S128x128, .bf16⟩
  | 51 => ⟨S100000x128, .bf16⟩
  | 52 => ⟨S100000x128, .f32⟩
  | 53 => ⟨S_, .i32⟩
  | 54 => ⟨S1100000, .i32⟩
  | 55 => ⟨S1100000, .i1⟩
  | 56 => ⟨S_, .i32⟩
  | 57 => ⟨S1100000, .i32⟩
  | 58 => ⟨S1100000, .i32⟩
  | 59 => ⟨S1100000, .i32⟩
  | 60 => ⟨S1100000x1, .i32⟩
  | 61 => ⟨S1100000x128, .f32⟩
  | 62 => ⟨S1100000x1, .f32⟩
  | 63 => ⟨S1100000x128, .f32⟩
  | 64 => ⟨S1100000x128, .f32⟩
  | 65 => ⟨S_, .f32⟩
  | 66 => ⟨S100000x128, .f32⟩
  | 67 => ⟨S1100000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .bf16⟩
  | 76 => ⟨S100000x128, .f32⟩
  | 77 => ⟨S_, .i32⟩
  | 78 => ⟨S1100000, .i32⟩
  | 79 => ⟨S1100000, .i1⟩
  | 80 => ⟨S_, .i32⟩
  | 81 => ⟨S1100000, .i32⟩
  | 82 => ⟨S1100000, .i32⟩
  | 83 => ⟨S1100000, .i32⟩
  | 84 => ⟨S1100000x1, .i32⟩
  | 85 => ⟨S1100000x128, .f32⟩
  | 86 => ⟨S1100000x1, .f32⟩
  | 87 => ⟨S1100000x128, .f32⟩
  | 88 => ⟨S1100000x128, .f32⟩
  | 89 => ⟨S_, .f32⟩
  | 90 => ⟨S100000x128, .f32⟩
  | 91 => ⟨S1100000x1, .i32⟩
  | 92 => ⟨S100000x128, .f32⟩
  | 93 => ⟨S1x128, .f32⟩
  | 94 => ⟨S100000x128, .f32⟩
  | 95 => ⟨S100000x128, .f32⟩
  | 96 => ⟨S64x128, .f32⟩
  | 97 => ⟨S_, .i32⟩
  | 98 => ⟨S100000, .i32⟩
  | 99 => ⟨S100000, .i1⟩
  | 100 => ⟨S100000, .f32⟩
  | 101 => ⟨S_, .f32⟩
  | 102 => ⟨S64, .f32⟩
  | 103 => ⟨S100000x1, .i32⟩
  | 104 => ⟨S64, .f32⟩
  | 105 => ⟨S100000x128, .bf16⟩
  | 106 => ⟨S_, .i32⟩
  | 107 => ⟨S_, .bf16⟩
  | 108 => ⟨S100352x128, .bf16⟩
  | 109 => ⟨S_, .i32⟩
  | 110 => ⟨S_, .i32⟩
  | 111 => ⟨S100352, .i32⟩
  | 112 => ⟨S1x100352, .i32⟩
  | 113 => ⟨S64x128, .f32⟩
  | 114 => ⟨S_, .f32⟩
  | 115 => ⟨S64, .f32⟩
  | 116 => ⟨S64, .f32⟩
  | 117 => ⟨S64x1, .f32⟩
  | 118 => ⟨S64x128, .f32⟩
  | 119 => ⟨S64x128, .f32⟩
  | 120 => ⟨S64x256, .f32⟩
  | 121 => ⟨S64x100, .f32⟩
  | 122 => ⟨S64x356, .f32⟩
  | 123 => ⟨S1x128, .f32⟩
  | 124 => ⟨S1x128, .f32⟩
  | 125 => ⟨S1x200, .f32⟩
  | 126 => ⟨S1x4000, .f32⟩
  | 127 => ⟨S64x200, .f32⟩
  | _ => ⟨S100000x128, .f32⟩

abbrev hbmTy0_1 (i : Nat) : BufTy := match i % 128 with
  | 0 => ⟨S64x4000, .f32⟩
  | 1 => ⟨S64x100x2, .f32⟩
  | 2 => ⟨S64x20x100x2, .f32⟩
  | 3 => ⟨S_, .f32⟩
  | 4 => ⟨S64x100, .f32⟩
  | 5 => ⟨S_, .f32⟩
  | 6 => ⟨S64x100, .f32⟩
  | 7 => ⟨S64x100, .f32⟩
  | 8 => ⟨S64x100x1, .f32⟩
  | 9 => ⟨S64x100x2, .f32⟩
  | 10 => ⟨S64x100x2, .f32⟩
  | 11 => ⟨S64x100x2, .f32⟩
  | 12 => ⟨S_, .f32⟩
  | 13 => ⟨S64x100, .f32⟩
  | 14 => ⟨S64x100x1, .f32⟩
  | 15 => ⟨S64x100x2, .f32⟩
  | 16 => ⟨S64x100x2, .f32⟩
  | 17 => ⟨S_, .f32⟩
  | 18 => ⟨S64x20x100, .f32⟩
  | 19 => ⟨S_, .f32⟩
  | 20 => ⟨S64x20x100, .f32⟩
  | 21 => ⟨S64x20x100, .f32⟩
  | 22 => ⟨S64x20x100x1, .f32⟩
  | 23 => ⟨S64x20x100x2, .f32⟩
  | 24 => ⟨S64x20x100x2, .f32⟩
  | 25 => ⟨S64x20x100x2, .f32⟩
  | 26 => ⟨S_, .f32⟩
  | 27 => ⟨S64x20x100, .f32⟩
  | 28 => ⟨S64x20x100x1, .f32⟩
  | 29 => ⟨S64x20x100x2, .f32⟩
  | 30 => ⟨S64x20x100x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x128, .bf16⟩
  | .local _ .vmem, ⟨8, _⟩ => ⟨S10000x128, .f32⟩
  | .local _ .vmem, ⟨9, _⟩ => ⟨S10000x128, .f32⟩
  | .local _ .vmem, ⟨10, _⟩ => ⟨S1x12544, .i32⟩
  | .local _ .vmem, ⟨11, _⟩ => ⟨S1x12544, .i32⟩
  | .local _ .vmem, ⟨12, _⟩ => ⟨S12544x128, .bf16⟩
  | .local _ .vmem, ⟨13, _⟩ => ⟨S12544x128, .bf16⟩
  | .local _ .vmem, ⟨14, _⟩ => ⟨S64x128, .f32⟩
  | .local _ .vmem, ⟨15, _⟩ => ⟨S64x128, .f32⟩
  | .local _ .vmem, ⟨16, _⟩ => ⟨S64x356, .f32⟩
  | .local _ .vmem, ⟨17, _⟩ => ⟨S356x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x200, .f32⟩
  | .local _ .vmem, ⟨22, _⟩ => ⟨S1x200, .f32⟩
  | .local _ .vmem, ⟨23, _⟩ => ⟨S128x4000, .f32⟩
  | .local _ .vmem, ⟨24, _⟩ => ⟨S1x4000, .f32⟩
  | .local _ .vmem, ⟨25, _⟩ => ⟨S64x200, .f32⟩
  | .local _ .vmem, ⟨26, _⟩ => ⟨S64x4000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call0_cst : Ref sig .tc := ⟨.hbm, 72, rfl⟩
abbrev main_call0_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_7 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_12 : Ref sig .tc := ⟨.hbm, 106, rfl⟩
abbrev main_call1_v0 : Ref sig .tc := ⟨.hbm, 107, rfl⟩
abbrev main_v74 : Ref sig .tc := ⟨.hbm, 108, rfl⟩
abbrev main_c_13 : Ref sig .tc := ⟨.hbm, 109, rfl⟩
abbrev main_call2_v0 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_14 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90_0 : Ref sig .tc := ⟨.hbm, 127, rfl⟩
abbrev main_v90_1 : Ref sig .tc := ⟨.hbm, 128, rfl⟩
abbrev main_v91 : Ref sig .tc := ⟨.hbm, 129, rfl⟩
abbrev main_v92 : Ref sig .tc := ⟨.hbm, 130, rfl⟩
abbrev main_cst_15 : Ref sig .tc := ⟨.hbm, 131, rfl⟩
abbrev main_v93 : Ref sig .tc := ⟨.hbm, 132, rfl⟩
abbrev main_cst_16 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_17 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_18 : Ref sig .tc := ⟨.hbm, 145, rfl⟩
abbrev main_v104 : Ref sig .tc := ⟨.hbm, 146, rfl⟩
abbrev main_cst_19 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_20 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc3_stg8_0 : Ref sig .tc := ⟨.vmem, 24, rfl⟩
abbrev cc3_stg9_0 : Ref sig .tc := ⟨.vmem, 25, rfl⟩
abbrev cc3_stg10_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem6_0 : DmaSem sig := 21
abbrev cc3_sem7_0 : DmaSem sig := 22
abbrev cc3_sem8_0 : DmaSem sig := 23
abbrev cc3_sem9_0 : DmaSem sig := 24
abbrev cc3_sem10_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_9 : BitVec 32 := 0#32
  let v25 : BitVec 1 := Scalar.cmpi .ne v24 c0_i32_9
  v25

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x12544 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12544x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x356 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S356x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x200 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x200 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x4000 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x4000 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x200 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x4000 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S64x128_0_0 : S100000x128.Slices ![0, 0] S64x128
  bcast_S_S64 : S_.BroadcastsInDim S64 (![] : Fin 0 → Fin S64.rank)
  bcast_S100000_S100000x1_0 : S100000.BroadcastsInDim S100000x1 (![0] : Fin 1 → Fin S100000x1.rank)
  pads_S100000x128_S100352x128_03520_000 : S100000x128.Pads (![0, 0] : Fin 2 → Nat) ![352, 0] ![0, 0] S100352x128
  h_S_ : 0 < S_.numel
  pads_S100000_S100352_03520 : S100000.Pads (![0] : Fin 1 → Nat) ![352] ![0] S100352
  shapeCasts_S100352_S1x100352 : S100352.ShapeCasts S1x100352
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x12544_S1x12544_0_0 : ∀ a, (![0, 0] : Fin 2 → Nat) a + S1x12544.size a ≤ S1x12544.size a
  h_S1x12544 : 0 < S1x12544.numel
  shapeCasts_S1x12544_S1x12544 : S1x12544.ShapeCasts S1x12544
  broadcasts_S1x12544_S64x12544 : S1x12544.Broadcasts S64x12544
  iota_S64x12544_d0_w32 : S64x12544.Iotas .tc 32 [0]
  natLt_1_32 : 1 < 32
  inb_S12544x128_S12544x128_0_0 : ∀ a, (![0, 0] : Fin 2 → Nat) a + S12544x128.size a ≤ S12544x128.size a
  h_S12544x128 : 0 < S12544x128.numel
  shapeCasts_S12544x128_S12544x128 : S12544x128.ShapeCasts S12544x128
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x128_S64x256_d1 : Shape.Concatenates [S64x128, S64x128] S64x256 1
  concatenates_S64x256_S64x100_S64x356_d1 : Shape.Concatenates [S64x256, S64x100] S64x356 1
  shapeCasts_S128_S1x128 : S128.ShapeCasts S1x128
  shapeCasts_S200_S1x200 : S200.ShapeCasts S1x200
  shapeCasts_S4000_S1x4000 : S4000.ShapeCasts S1x4000
  inb_S64x356_S64x356_0_0 : ∀ a, (![0, 0] : Fin 2 → Nat) a + S64x356.size a ≤ S64x356.size a
  h_S64x356 : 0 < S64x356.numel
  shapeCasts_S64x356_S64x356 : S64x356.ShapeCasts S64x356
  inb_S356x128_S356x128_0_0 : ∀ a, (![0, 0] : Fin 2 → Nat) a + S356x128.size a ≤ S356x128.size a
  h_S356x128 : 0 < S356x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x200_S128x200_0_0 : ∀ a, (![0, 0] : Fin 2 → Nat) a + S128x200.size a ≤ S128x200.size a
  h_S128x200 : 0 < S128x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S64x200 : S1x200.Broadcasts S64x200
  inb_S64x200_S64x200_0_0 : ∀ a, (![0, 0] : Fin 2 → Nat) a + S64x200.size a ≤ S64x200.size a
  h_S64x200 : 0 < S64x200.numel
  inb_S128x4000_S128x4000_0_0 : ∀ a, (![0, 0] : Fin 2 → Nat) a + S128x4000.size a ≤ S128x4000.size a
  h_S128x4000 : 0 < S128x4000.numel
  inb_S1x4000_S1x4000_0_0 : ∀ a, (![0, 0] : Fin 2 → Nat) a + S1x4000.size a ≤ S1x4000.size a
  h_S1x4000 : 0 < S1x4000.numel
  shapeCasts_S1x4000_S1x4000 : S1x4000.ShapeCasts S1x4000
  broadcasts_S1x4000_S64x4000 : S1x4000.Broadcasts S64x4000
  inb_S64x4000_S64x4000_0_0 : ∀ a, (![0, 0] : Fin 2 → Nat) a + S64x4000.size a ≤ S64x4000.size a
  h_S64x4000 : 0 < S64x4000.numel
  shapeCasts_S64x200_S64x100x2 : S64x200.ShapeCasts S64x100x2
  shapeCasts_S64x4000_S64x20x100x2 : S64x4000.ShapeCasts S64x20x100x2
  reducesTo_S64x100x2_S64x100_d2 : S64x100x2.ReducesTo [2] S64x100
  bcast_S_S64x100 : S_.BroadcastsInDim S64x100 (![] : Fin 0 → Fin S64x100.rank)
  bcast_S64x100_S64x100x1_0_1 : S64x100.BroadcastsInDim S64x100x1 (![0, 1] : Fin 2 → Fin S64x100x1.rank)
  bcast_S64x100x1_S64x100x2_0_1_2 : S64x100x1.BroadcastsInDim S64x100x2 (![0, 1, 2] : Fin 3 → Fin S64x100x2.rank)
  reducesTo_S64x20x100x2_S64x20x100_d3 : S64x20x100x2.ReducesTo [3] S64x20x100
  bcast_S_S64x20x100 : S_.BroadcastsInDim S64x20x100 (![] : Fin 0 → Fin S64x20x100.rank)
  bcast_S64x20x100_S64x20x100x1_0_1_2 : S64x20x100.BroadcastsInDim S64x20x100x1 (![0, 1, 2] : Fin 3 → Fin S64x20x100x1.rank)
  bcast_S64x20x100x1_S64x20x100x2_0_1_2_3 : S64x20x100x1.BroadcastsInDim S64x20x100x2 (![0, 1, 2, 3] : Fin 4 → Fin S64x20x100x2.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x128_S128x128_S10000x128_1_0_0_1_n_n_wf : DotDims.WF S10000x128 S128x128 S10000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  scatter_S64_S100000x1_S100000_n_0_0_1_wf : ScatterDims.WF S64 S100000x1 S100000 [] [0] [0] 1
  dot_S64x12544_S12544x128_S64x128_1_0_0_1_n_n_wf : DotDims.WF S64x12544 S12544x128 S64x128 [1] [0] [0] [1] [] []
  dot_S64x356_S356x128_S64x128_1_0_0_1_n_n_wf : DotDims.WF S64x356 S356x128 S64x128 [1] [0] [0] [1] [] []
  dot_S64x128_S128x128_S64x128_1_0_0_1_n_n_wf : DotDims.WF S64x128 S128x128 S64x128 [1] [0] [0] [1] [] []
  dot_S64x128_S128x200_S64x200_1_0_0_1_n_n_wf : DotDims.WF S64x128 S128x200 S64x200 [1] [0] [0] [1] [] []
  dot_S64x128_S128x4000_S64x4000_1_0_0_1_n_n_wf : DotDims.WF S64x128 S128x4000 S64x4000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x12544.size a ≤ S1x100352.size a
  hwx2_0 : ∀ i : grid2.Coords, EltTy.bits .i32 = 32 ∨ (Rect.block (s := S1x100352) S1x12544.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12544x128.size a ≤ S100352x128.size a
  hwx2_1 : ∀ i : grid2.Coords, EltTy.bits .bf16 = 32 ∨ (Rect.block (s := S100352x128) S12544x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x356.size a ≤ S64x356.size a
  hwx3_0 : ∀ i : grid3.Coords, EltTy.bits .f32 = 32 ∨ (Rect.block (s := S64x356) S64x356.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S356x128.size a ≤ S356x128.size a
  hwx3_1 : ∀ i : grid3.Coords, EltTy.bits .f32 = 32 ∨ (Rect.block (s := S356x128) S356x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x200.size a ≤ S128x200.size a
  hwx3_5 : ∀ i : grid3.Coords, EltTy.bits .f32 = 32 ∨ (Rect.block (s := S128x200) S128x200.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x200.size a ≤ S1x200.size a
  hwx3_6 : ∀ i : grid3.Coords, EltTy.bits .f32 = 32 ∨ (Rect.block (s := S1x200) S1x200.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x4000.size a ≤ S128x4000.size a
  hwx3_7 : ∀ i : grid3.Coords, EltTy.bits .f32 = 32 ∨ (Rect.block (s := S128x4000) S128x4000.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x4000.size a ≤ S1x4000.size a
  hwx3_8 : ∀ i : grid3.Coords, EltTy.bits .f32 = 32 ∨ (Rect.block (s := S1x4000) S1x4000.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x200.size a ≤ S64x200.size a
  hwx3_9 : ∀ i : grid3.Coords, EltTy.bits .f32 = 32 ∨ (Rect.block (s := S64x200) S64x200.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x4000.size a ≤ S64x4000.size a
  hwx3_10 : ∀ i : grid3.Coords, EltTy.bits .f32 = 32 ∨ (Rect.block (s := S64x4000) S64x4000.size (cc3_transform_10 i) (hinb3_10 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x12544_S12544x128_S64x128_1_0_0_1_n_n : DotDims S64x12544 S12544x128 S64x128 where
  lhsContracting := [1]
  rhsContracting := [0]
  lhsNonContracting := [0]
  rhsNonContracting := [1]
  lhsBatch := []
  rhsBatch := []
  wf := dot_S64x12544_S12544x128_S64x128_1_0_0_1_n_n_wf
def dot_S64x356_S356x128_S64x128_1_0_0_1_n_n : DotDims S64x356 S356x128 S64x128 where
  lhsContracting := [1]
  rhsContracting := [0]
  lhsNonContracting := [0]
  rhsNonContracting := [1]
  lhsBatch := []
  rhsBatch := []
  wf := dot_S64x356_S356x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x200_S64x200_1_0_0_1_n_n : DotDims S64x128 S128x200 S64x200 where
  lhsContracting := [1]
  rhsContracting := [0]
  lhsNonContracting := [0]
  rhsNonContracting := [1]
  lhsBatch := []
  rhsBatch := []
  wf := dot_S64x128_S128x200_S64x200_1_0_0_1_n_n_wf
def dot_S64x128_S128x4000_S64x4000_1_0_0_1_n_n : DotDims S64x128 S128x4000 S64x4000 where
  lhsContracting := [1]
  rhsContracting := [0]
  lhsNonContracting := [0]
  rhsNonContracting := [1]
  lhsBatch := []
  rhsBatch := []
  wf := dot_S64x128_S128x4000_S64x4000_1_0_0_1_n_n_wf

abbrev win0_0 : Pipeline.Window sig grid0 :=
  Pipeline.Window.ofSpec (Memref.whole main_v29) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S1x12544.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S12544x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S64x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v85) S64x356.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S356x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x200.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v88) S1x200.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg14) S128x4000.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v89) S1x4000.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v90_0) S64x200.size cc3_transform_9 reads3_9 true true 1 stage3_9 sem3_9
    hrank3 hreads3_9 hinb3_9 nbuf3_9 (Memref.isWhole_whole _) hwx3_9 hstage3_9

abbrev win3_10 : Pipeline.Window sig grid3 :=
  Pipeline.Window.ofSpec (Memref.whole main_v90_1) S64x4000.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S64x100 : Shape := ⟨2, ![64, 100]⟩
abbrev S128x128 : Shape := ⟨2, ![128, 128]⟩
abbrev S128 : Shape := ⟨1, ![128]⟩
abbrev S356x128 : Shape := ⟨2, ![356, 128]⟩
abbrev S128x200 : Shape := ⟨2, ![128, 200]⟩
abbrev S200 : Shape := ⟨1, ![200]⟩
abbrev S128x4000 : Shape := ⟨2, ![128, 4000]⟩
abbrev S4000 : Shape := ⟨1, ![4000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x256 : Shape := ⟨2, ![64, 256]⟩
abbrev S64x356 : Shape := ⟨2, ![64, 356]⟩
abbrev S64x200 : Shape := ⟨2, ![64, 200]⟩
abbrev S1x200 : Shape := ⟨2, ![1, 200]⟩
abbrev S64x100x2 : Shape := ⟨3, ![64, 100, 2]⟩
abbrev S64x4000 : Shape := ⟨2, ![64, 4000]⟩
abbrev S1x4000 : Shape := ⟨2, ![1, 4000]⟩
abbrev S64x20x100x2 : Shape := ⟨4, ![64, 20, 100, 2]⟩
abbrev S64x100x1 : Shape := ⟨3, ![64, 100, 1]⟩
abbrev S64x20x100 : Shape := ⟨3, ![64, 20, 100]⟩
abbrev S64x20x100x1 : Shape := ⟨4, ![64, 20, 100, 1]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S64x100, .i32⟩
  | 4 => ⟨S128x128, .f32⟩
  | 5 => ⟨S128, .f32⟩
  | 6 => ⟨S128x128, .f32⟩
  | 7 => ⟨S128, .f32⟩
  | 8 => ⟨S356x128, .f32⟩
  | 9 => ⟨S128, .f32⟩
  | 10 => ⟨S128x128, .f32⟩
  | 11 => ⟨S128, .f32⟩
  | 12 => ⟨S128x200, .f32⟩
  | 13 => ⟨S200, .f32⟩
  | 14 => ⟨S128x4000, .f32⟩
  | 15 => ⟨S4000, .f32⟩
  | 16 => ⟨S1x1000000, .i32⟩
  | 17 => ⟨S1000000, .i32⟩
  | 18 => ⟨S1x1000000, .i32⟩
  | 19 => ⟨S1000000, .i32⟩
  | 20 => ⟨S100000x128, .f32⟩
  | 21 => ⟨S100000, .i32⟩
  | 22 => ⟨S1100000, .i32⟩
  | 23 => ⟨S1100000, .i32⟩
  | 24 => ⟨S_, .f32⟩
  | 25 => ⟨S1100000, .f32⟩
  | 26 => ⟨S_, .f32⟩
  | 27 => ⟨S100000, .f32⟩
  | 28 => ⟨S1100000x1, .i32⟩
  | 29 => ⟨S100000, .f32⟩
  | 30 => ⟨S100000, .f32⟩
  | 31 => ⟨S_, .i32⟩
  | 32 => ⟨S1100000, .i32⟩
  | 33 => ⟨S1100000, .i1⟩
  | 34 => ⟨S_, .i32⟩
  | 35 => ⟨S1100000, .i32⟩
  | 36 => ⟨S1100000, .i32⟩
  | 37 => ⟨S1100000, .i32⟩
  | 38 => ⟨S1100000x1, .i32⟩
  | 39 => ⟨S1100000, .f32⟩
  | 40 => ⟨S_, .i32⟩
  | 41 => ⟨S1100000, .i32⟩
  | 42 => ⟨S1100000, .i1⟩
  | 43 => ⟨S_, .i32⟩
  | 44 => ⟨S1100000, .i32⟩
  | 45 => ⟨S1100000, .i32⟩
  | 46 => ⟨S1100000, .i32⟩
  | 47 => ⟨S1100000x1, .i32⟩
  | 48 => ⟨S1100000, .f32⟩
  | 49 => ⟨S1100000, .f32⟩
  | 50 => ⟨S_, .i32⟩
  | 51 => ⟨S1100000, .i32⟩
  | 52 => ⟨S1100000, .i1⟩
  | 53 => ⟨S_, .i32⟩
  | 54 => ⟨S1100000, .i32⟩
  | 55 => ⟨S1100000, .i32⟩
  | 56 => ⟨S1100000, .i32⟩
  | 57 => ⟨S1100000x1, .i32⟩
  | 58 => ⟨S1100000x128, .f32⟩
  | 59 => ⟨S1100000x1, .f32⟩
  | 60 => ⟨S1100000x128, .f32⟩
  | 61 => ⟨S1100000x128, .f32⟩
  | 62 => ⟨S_, .f32⟩
  | 63 => ⟨S100000x128, .f32⟩
  | 64 => ⟨S1100000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S100000, .i32⟩
  | 74 => ⟨S1100000, .i32⟩
  | 75 => ⟨S1100000, .i32⟩
  | 76 => ⟨S_, .f32⟩
  | 77 => ⟨S1100000, .f32⟩
  | 78 => ⟨S_, .f32⟩
  | 79 => ⟨S100000, .f32⟩
  | 80 => ⟨S1100000x1, .i32⟩
  | 81 => ⟨S100000, .f32⟩
  | 82 => ⟨S100000, .f32⟩
  | 83 => ⟨S_, .i32⟩
  | 84 => ⟨S1100000, .i32⟩
  | 85 => ⟨S1100000, .i1⟩
  | 86 => ⟨S_, .i32⟩
  | 87 => ⟨S1100000, .i32⟩
  | 88 => ⟨S1100000, .i32⟩
  | 89 => ⟨S1100000, .i32⟩
  | 90 => ⟨S1100000x1, .i32⟩
  | 91 => ⟨S1100000, .f32⟩
  | 92 => ⟨S_, .i32⟩
  | 93 => ⟨S1100000, .i32⟩
  | 94 => ⟨S1100000, .i1⟩
  | 95 => ⟨S_, .i32⟩
  | 96 => ⟨S1100000, .i32⟩
  | 97 => ⟨S1100000, .i32⟩
  | 98 => ⟨S1100000, .i32⟩
  | 99 => ⟨S1100000x1, .i32⟩
  | 100 => ⟨S1100000, .f32⟩
  | 101 => ⟨S1100000, .f32⟩
  | 102 => ⟨S_, .i32⟩
  | 103 => ⟨S1100000, .i32⟩
  | 104 => ⟨S1100000, .i1⟩
  | 105 => ⟨S_, .i32⟩
  | 106 => ⟨S1100000, .i32⟩
  | 107 => ⟨S1100000, .i32⟩
  | 108 => ⟨S1100000, .i32⟩
  | 109 => ⟨S1100000x1, .i32⟩
  | 110 => ⟨S1100000x128, .f32⟩
  | 111 => ⟨S1100000x1, .f32⟩
  | 112 => ⟨S1100000x128, .f32⟩
  | 113 => ⟨S1100000x128, .f32⟩
  | 114 => ⟨S_, .f32⟩
  | 115 => ⟨S100000x128, .f32⟩
  | 116 => ⟨S1100000x1, .i32⟩
  | 117 => ⟨S100000x128, .f32⟩
  | 118 => ⟨S1x128, .f32⟩
  | 119 => ⟨S100000x128, .f32⟩
  | 120 => ⟨S100000x128, .f32⟩
  | 121 => ⟨S64x128, .f32⟩
  | 122 => ⟨S_, .i32⟩
  | 123 => ⟨S100000, .i32⟩
  | 124 => ⟨S100000, .i1⟩
  | 125 => ⟨S100000, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S64x128, .f32⟩
  | 3 => ⟨S100000x1, .i32⟩
  | 4 => ⟨S64x128, .f32⟩
  | 5 => ⟨S_, .f32⟩
  | 6 => ⟨S64, .f32⟩
  | 7 => ⟨S100000x1, .i32⟩
  | 8 => ⟨S64, .f32⟩
  | 9 => ⟨S_, .f32⟩
  | 10 => ⟨S64, .f32⟩
  | 11 => ⟨S64, .f32⟩
  | 12 => ⟨S64x1, .f32⟩
  | 13 => ⟨S64x128, .f32⟩
  | 14 => ⟨S64x128, .f32⟩
  | 15 => ⟨S64x256, .f32⟩
  | 16 => ⟨S64x100, .f32⟩
  | 17 => ⟨S64x356, .f32⟩
  | 18 => ⟨S64x128, .f32⟩
  | 19 => ⟨S1x128, .f32⟩
  | 20 => ⟨S64x128, .f32⟩
  | 21 => ⟨S64x128, .f32⟩
  | 22 => ⟨S_, .f32⟩
  | 23 => ⟨S64x128, .f32⟩
  | 24 => ⟨S64x128, .f32⟩
  | 25 => ⟨S64x128, .f32⟩
  | 26 => ⟨S1x128, .f32⟩
  | 27 => ⟨S64x128, .f32⟩
  | 28 => ⟨S64x128, .f32⟩
  | 29 => ⟨S_, .f32⟩
  | 30 => ⟨S64x128, .f32⟩
  | 31 => ⟨S64x128, .f32⟩
  | 32 => ⟨S64x200, .f32⟩
  | 33 => ⟨S1x200, .f32⟩
  | 34 => ⟨S64x200, .f32⟩
  | 35 => ⟨S64x200, .f32⟩
  | 36 => ⟨S64x100x2, .f32⟩
  | 37 => ⟨S64x4000, .f32⟩
  | 38 => ⟨S1x4000, .f32⟩
  | 39 => ⟨S64x4000, .f32⟩
  | 40 => ⟨S64x4000, .f32⟩
  | 41 => ⟨S64x20x100x2, .f32⟩
  | 42 => ⟨S_, .f32⟩
  | 43 => ⟨S64x100, .f32⟩
  | 44 => ⟨S_, .f32⟩
  | 45 => ⟨S64x100, .f32⟩
  | 46 => ⟨S64x100, .f32⟩
  | 47 => ⟨S64x100x1, .f32⟩
  | 48 => ⟨S64x100x2, .f32⟩
  | 49 => ⟨S64x100x2, .f32⟩
  | 50 => ⟨S64x100x2, .f32⟩
  | 51 => ⟨S_, .f32⟩
  | 52 => ⟨S64x100, .f32⟩
  | 53 => ⟨S64x100x1, .f32⟩
  | 54 => ⟨S64x100x2, .f32⟩
  | 55 => ⟨S64x100x2, .f32⟩
  | 56 => ⟨S_, .f32⟩
  | 57 => ⟨S64x20x100, .f32⟩
  | 58 => ⟨S_, .f32⟩
  | 59 => ⟨S64x20x100, .f32⟩
  | 60 => ⟨S64x20x100, .f32⟩
  | 61 => ⟨S64x20x100x1, .f32⟩
  | 62 => ⟨S64x20x100x2, .f32⟩
  | 63 => ⟨S64x20x100x2, .f32⟩
  | 64 => ⟨S64x20x100x2, .f32⟩
  | 65 => ⟨S_, .f32⟩
  | 66 => ⟨S64x20x100, .f32⟩
  | 67 => ⟨S64x20x100x1, .f32⟩
  | 68 => ⟨S64x20x100x2, .f32⟩
  | 69 => ⟨S64x20x100x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_9 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_c_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_16 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_18 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_19 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call1_cst : Ref sig .tc := ⟨.hbm, 150, rfl⟩
abbrev main_call1_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_call2_cst : Ref sig .tc := ⟨.hbm, 157, rfl⟩
abbrev main_call2_v0 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_20 : Ref sig .tc := ⟨.hbm, 170, rfl⟩
abbrev main_v126 : Ref sig .tc := ⟨.hbm, 171, rfl⟩
abbrev main_cst_21 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_22 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_23 : Ref sig .tc := ⟨.hbm, 184, rfl⟩
abbrev main_v137 : Ref sig .tc := ⟨.hbm, 185, rfl⟩
abbrev main_cst_24 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_25 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S64x128_0_0 : S100000x128.Slices ![0, 0] S64x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x128_S64x256_d1 : Shape.Concatenates [S64x128, S64x128] S64x256 1
  concatenates_S64x256_S64x100_S64x356_d1 : Shape.Concatenates [S64x256, S64x100] S64x356 1
  bcast_S1x128_S64x128_0_1 : S1x128.BroadcastsInDim S64x128 (![0, 1] : Fin 2 → Fin S64x128.rank)
  bcast_S200_S1x200_1 : S200.BroadcastsInDim S1x200 (![1] : Fin 1 → Fin S1x200.rank)
  bcast_S1x200_S64x200_0_1 : S1x200.BroadcastsInDim S64x200 (![0, 1] : Fin 2 → Fin S64x200.rank)
  shapeCasts_S64x200_S64x100x2 : S64x200.ShapeCasts S64x100x2
  bcast_S4000_S1x4000_1 : S4000.BroadcastsInDim S1x4000 (![1] : Fin 1 → Fin S1x4000.rank)
  bcast_S1x4000_S64x4000_0_1 : S1x4000.BroadcastsInDim S64x4000 (![0, 1] : Fin 2 → Fin S64x4000.rank)
  shapeCasts_S64x4000_S64x20x100x2 : S64x4000.ShapeCasts S64x20x100x2
  reducesTo_S64x100x2_S64x100_d2 : S64x100x2.ReducesTo [2] S64x100
  h_S_ : 0 < S_.numel
  bcast_S_S64x100 : S_.BroadcastsInDim S64x100 (![] : Fin 0 → Fin S64x100.rank)
  bcast_S64x100_S64x100x1_0_1 : S64x100.BroadcastsInDim S64x100x1 (![0, 1] : Fin 2 → Fin S64x100x1.rank)
  bcast_S64x100x1_S64x100x2_0_1_2 : S64x100x1.BroadcastsInDim S64x100x2 (![0, 1, 2] : Fin 3 → Fin S64x100x2.rank)
  reducesTo_S64x20x100x2_S64x20x100_d3 : S64x20x100x2.ReducesTo [3] S64x20x100
  bcast_S_S64x20x100 : S_.BroadcastsInDim S64x20x100 (![] : Fin 0 → Fin S64x20x100.rank)
  bcast_S64x20x100_S64x20x100x1_0_1_2 : S64x20x100.BroadcastsInDim S64x20x100x1 (![0, 1, 2] : Fin 3 → Fin S64x20x100x1.rank)
  bcast_S64x20x100x1_S64x20x100x2_0_1_2_3 : S64x20x100x1.BroadcastsInDim S64x20x100x2 (![0, 1, 2, 3] : Fin 4 → Fin S64x20x100x2.rank)
  dot_S100000x128_S128x128_S100000x128_1_0_0_1_n_n_wf : DotDims.WF S100000x128 S128x128 S100000x128 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x356_S356x128_S64x128_1_0_0_1_n_n_wf : DotDims.WF S64x356 S356x128 S64x128 [1] [0] [0] [1] [] []
  dot_S64x128_S128x128_S64x128_1_0_0_1_n_n_wf : DotDims.WF S64x128 S128x128 S64x128 [1] [0] [0] [1] [] []
  dot_S64x128_S128x200_S64x200_1_0_0_1_n_n_wf : DotDims.WF S64x128 S128x200 S64x200 [1] [0] [0] [1] [] []
  dot_S64x128_S128x4000_S64x4000_1_0_0_1_n_n_wf : DotDims.WF S64x128 S128x4000 S64x4000 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x356_S356x128_S64x128_1_0_0_1_n_n : DotDims S64x356 S356x128 S64x128 where
  lhsContracting := [1]
  rhsContracting := [0]
  lhsNonContracting := [0]
  rhsNonContracting := [1]
  lhsBatch := []
  rhsBatch := []
  wf := dot_S64x356_S356x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x200_S64x200_1_0_0_1_n_n : DotDims S64x128 S128x200 S64x200 where
  lhsContracting := [1]
  rhsContracting := [0]
  lhsNonContracting := [0]
  rhsNonContracting := [1]
  lhsBatch := []
  rhsBatch := []
  wf := dot_S64x128_S128x200_S64x200_1_0_0_1_n_n_wf
def dot_S64x128_S128x4000_S64x4000_1_0_0_1_n_n : DotDims S64x128 S128x4000 S64x4000 where
  lhsContracting := [1]
  rhsContracting := [0]
  lhsNonContracting := [0]
  rhsNonContracting := [1]
  lhsBatch := []
  rhsBatch := []
  wf := dot_S64x128_S128x4000_S64x4000_1_0_0_1_n_n_wf

class Facts : Prop extends Facts₀ where

variable [Facts]
-- ==== Proof.KI.Reg0.lean ====
import proofs.«428478_j66365834658323_2_alg».proof.Proof.Gen.KernelIdeal.Launch
import proofs.«428478_j66365834658323_2_alg».proof.Proof.Gen.KernelIdeal.Skeleton
import proofs.«428478_j66365834658323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem zeros0 : (![0, 0] : Fin 2 → Nat) = fun _ => 0 := funext fun a => by fin_cases a <;> rfl

abbrev rows0 : Rect S10000x128 := Rect.unit (s := S10000x128) ![0, 0] S10000x128.size inb_S10000x128_S10000x128_0_0

abbrev wts0 : Rect S128x128 := Rect.unit (s := S128x128) ![0, 0] S128x128.size inb_S128x128_S128x128_0_0

def out0_2 (x0 : Vec F S10000x128 .bf16) (x1 : Vec F S128x128 .bf16) : Vec F S10000x128 .f32 :=
  View.canon [⟨rows0, k0_pay1 (View.ld x0 rows0) (View.ld x1 wts0)⟩]

theorem cover0_2 (p0 : Vec F S10000x128 .f32) (y : S10000x128.Idx) :
    ∃ pc ∈ ([⟨rows0, p0⟩] : List (View.Piece (Elt F) S10000x128 .f32)), y ∈ pc.1.set :=
  ⟨_, List.mem_singleton_self _, View.mem_set_unit_zero (S := S10000x128) zeros0 inb_S10000x128_S10000x128_0_0 y⟩

theorem out0_2_eq (x0 : Vec F S10000x128 .bf16) (x1 : Vec F S128x128 .bf16) : out0_2 x0 x1 = k0_pay1 x0 x1 := by
  unfold out0_2
  rw [View.canon_unit_zero (S := S10000x128) zeros0]
  simp only [View.ld_unit_zero (S := S10000x128) zeros0, View.ld_unit_zero (S := S128x128) zeros0]

set_option maxHeartbeats 1000000 in

theorem sound_kernel0 (c : Dev nD) (E : Set ℕ) (i : grid0.Coords)
    (arg1 : Memref sig .tc .vmem S10000x128 .bf16) (harg1 : arg1.IsWhole)
    (arg2 : Memref sig .tc .vmem S128x128 .bf16) (harg2 : arg2.IsWhole)
    (arg3 : Memref sig .tc .vmem S10000x128 .f32) (harg3 : arg3.IsWhole)
    (x0 : Vec F S10000x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__feat_transform_kernel i arg1 harg1 arg2 harg2 arg3 harg3) K := by
  simp only [cc0__feat_transform_kernel_eq_skeleton]; unfold cc0__feat_transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t)
    ∧ (∀ d, (dat0 V c).before 1 t d = iblk0 V c 1 t) := by
  and_intros <;> intro d <;>
  exact ((dat0 V c).before_in_eq_fetched _ rfl (fun _ => rfl) (fun _ _ _ => rfl)
      (fun t => by unfold Dat.blockOf; dsimp only [dat0]; unfold iblk0; try rfl) t d).trans
    (by unfold Dat.fetched Dat.blockOf iblk0; dsimp only [dat0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(before0 V c t).1, (before0 V c t).2]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg2.lean ====
import proofs.«428478_j66365834658323_2_alg».proof.Proof.Gen.KernelIdeal.Launch
import proofs.«428478_j66365834658323_2_alg».proof.Proof.Gen.KernelIdeal.Skeleton
import proofs.«428478_j66365834658323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_ids : Rect S1x12544 := Rect.unit (s := S1x12544) ![0, 0] S1x12544.size inb_S1x12544_S1x12544_0_0
abbrev r2_rows : Rect S12544x128 := Rect.unit (s := S12544x128) ![0, 0] S12544x128.size inb_S12544x128_S12544x128_0_0
abbrev r2_acc : Rect S64x128 := Rect.unit (s := S64x128) ![0, 0] S64x128.size inb_S64x128_S64x128_0_0

def acc2 (b : Vec F S1x12544 .i32) (s : Vec F S64x128 .f32) (h : Vec F S12544x128 .bf16) : Vec F S64x128 .f32 :=
  View.canon [⟨r2_acc, k2_pay2 (View.ld b r2_ids) (View.ld s r2_acc) (View.ld h r2_rows)⟩]

def zero2 : Vec F S64x128 .f32 :=
  View.canon [⟨r2_acc, k2_pay1 (F := F)⟩]

theorem idx_ids (x : S1x12544.Idx) : r2_ids.idx x = x := by
  funext a; apply Fin.ext; fin_cases a <;> exact (Nat.zero_add _).trans (Nat.one_mul _)
theorem idx_rows (x : S12544x128.Idx) : r2_rows.idx x = x := by
  funext a; apply Fin.ext; fin_cases a <;> exact (Nat.zero_add _).trans (Nat.one_mul _)
theorem idx_acc (x : S64x128.Idx) : r2_acc.idx x = x := by
  funext a; apply Fin.ext; fin_cases a <;> exact (Nat.zero_add _).trans (Nat.one_mul _)

theorem ld_ids (X : Vec F S1x12544 .i32) : View.ld X r2_ids = X := funext fun x => congrArg X (idx_ids x)
theorem ld_rows (X : Vec F S12544x128 .bf16) : View.ld X r2_rows = X := funext fun x => congrArg X (idx_rows x)
theorem ld_acc (X : Vec F S64x128 .f32) : View.ld X r2_acc = X := funext fun x => congrArg X (idx_acc x)

theorem mem_acc (y : S64x128.Idx) : y ∈ r2_acc.set := by
  have h := r2_acc.idx_mem y; rwa [idx_acc] at h

theorem cover_acc (p : Vec F S64x128 .f32) (L : List (View.Piece (Elt F) S64x128 .f32)) (y : S64x128.Idx) :
    ∃ pc ∈ ((⟨r2_acc, p⟩ : View.Piece (Elt F) S64x128 .f32) :: L), y ∈ pc.1.set :=
  ⟨_, List.mem_cons_self, mem_acc y⟩

theorem canon_acc (p : Vec F S64x128 .f32) (L : List (View.Piece (Elt F) S64x128 .f32)) :
    View.canon ((⟨r2_acc, p⟩ : View.Piece (Elt F) S64x128 .f32) :: L) = p := by
  funext y
  have h := View.canon_cons_emb r2_acc p L y
  rwa [show r2_acc.emb y = y from idx_acc y] at h

theorem acc2_eq (b : Vec F S1x12544 .i32) (s : Vec F S64x128 .f32) (h : Vec F S12544x128 .bf16) :
    acc2 b s h = k2_pay2 b s h := by
  unfold acc2; rw [canon_acc, ld_ids, ld_acc, ld_rows]

theorem zero2_eq : zero2 (F := F) = k2_pay1 := by
  unfold zero2; rw [canon_acc]

def sc2 (c : Dev nD) : (n : ℕ) → n < cfg2.N → Vec F S64x128 .f32
  | 0, h => acc2 (iblk2 V c 0 ⟨0, h⟩) zero2 (iblk2 V c 1 ⟨0, h⟩)
  | n + 1, h => acc2 (iblk2 V c 0 ⟨n + 1, h⟩) (sc2 c n (Nat.lt_of_succ_lt h)) (iblk2 V c 1 ⟨n + 1, h⟩)

theorem sc2_zero (c : Dev nD) (h : 0 < cfg2.N) :
    sc2 V c 0 h = acc2 (iblk2 V c 0 ⟨0, h⟩) zero2 (iblk2 V c 1 ⟨0, h⟩) := rfl

theorem sc2_succ (c : Dev nD) (n : ℕ) (h : n + 1 < cfg2.N) :
    sc2 V c (n + 1) h = acc2 (iblk2 V c 0 ⟨n + 1, h⟩) (sc2 V c n (Nat.lt_of_succ_lt h)) (iblk2 V c 1 ⟨n + 1, h⟩) := rfl

abbrev scM2 : Memref sig .tc .vmem S64x128 .f32 := Memref.whole cc2_scratch0

def rest2 (c : Dev nD) : sProp 𝕄 :=
  iprop(bigSep (((Finset.univ.filter fun b : Ref sig .tc => b.isScoped) \ Finset.univ.image (Pipeline.stageRef spec2)).erase cc2_scratch0)
      (fun b => iprop(∃ f : Buf (Elt F) ((c : Thread nD τ).loc b), ((c : Thread nD τ).loc b) ↦{fullShare} f))
    ∗ ∃ r, prngReg c r)

def PhiS2 (c : Dev nD) : (n : ℕ) → n ≤ cfg2.N → sProp 𝕄
  | 0, _ => Pipeline.ΦA spec2 c
  | n + 1, hn => iprop(owns (c : Thread nD τ) scM2 fullShare (sc2 V c n hn) ∗ rest2 c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (sc2 V c n hn) ∗ rest2 c) := rfl

theorem PhiS2_pos (c : Dev nD) (n : ℕ) (h : n ≤ cfg2.N) (hz : n ≠ 0) :
    PhiS2 V c n h = iprop(owns (c : Thread nD τ) scM2 fullShare (sc2 V c (n - 1) (by omega)) ∗ rest2 c) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => sc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = sc2 V c t.val t.isLt := by dsimp only [dat2]

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 7 :=
  (by decide +kernel : ∀ t : Fin grid2.N, cond2_1 (grid2.coords t) ↔ t.val = 7)

theorem liveAt2_0 : ∀ t : Fin cfg2.N, cfg2.idle 0 (grid2.coords t) = false := fun _ => rfl
theorem liveAt2_1 : ∀ t : Fin cfg2.N, cfg2.idle 1 (grid2.coords t) = false := fun _ => rfl
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

set_option maxHeartbeats 1000000 in

theorem sound_kernel2_mid (c : Dev nD) (E : Set ℕ) (i : grid2.Coords)
    (arg1 : Memref sig .tc .vmem S1x12544 .i32) (harg1 : arg1.IsWhole) (arg2 : Memref sig .tc .vmem S12544x128 .bf16) (harg2 : arg2.IsWhole)
    (arg3 : Memref sig .tc .vmem S64x128 .f32) (harg3 : arg3.IsWhole) (arg4 : Memref sig .tc .vmem S64x128 .f32) (harg4 : arg4.IsWhole)
    (hc0 : ¬cond2_0 i) (hc1 : ¬cond2_1 i)
    (x0 : Vec F S1x12544 .i32) (x1 : Vec F S12544x128 .bf16) (xs : Vec F S64x128 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1 ∗ owns (c : Thread nD τ) arg4 fullShare (acc2 x0 xs x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold acc2
  exact View.read_writes_eq_canon _ _ _ (cover_acc _ _)

set_option maxHeartbeats 1000000 in

theorem sound_kernel2_first (c : Dev nD) (E : Set ℕ) (i : grid2.Coords)
    (arg1 : Memref sig .tc .vmem S1x12544 .i32) (harg1 : arg1.IsWhole) (arg2 : Memref sig .tc .vmem S12544x128 .bf16) (harg2 : arg2.IsWhole)
    (arg3 : Memref sig .tc .vmem S64x128 .f32) (harg3 : arg3.IsWhole) (arg4 : Memref sig .tc .vmem S64x128 .f32) (harg4 : arg4.IsWhole)
    (hc0 : cond2_0 i) (hc1 : ¬cond2_1 i)
    (x0 : Vec F S1x12544 .i32) (x1 : Vec F S12544x128 .bf16) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (acc2 x0 zero2 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  rw [acc2_eq, zero2_eq, View.read_writes_eq_canon _ _ _ (cover_acc _ _), canon_acc,
    View.readCov_eq_canon_ld _ _ _ (cover_acc _ _), canon_acc, ld_acc,
    View.readAt_eq_ld, View.readAt_eq_ld, ld_ids, ld_rows]

set_option maxHeartbeats 1000000 in

theorem sound_kernel2_last (c : Dev nD) (E : Set ℕ) (i : grid2.Coords)
    (arg1 : Memref sig .tc .vmem S1x12544 .i32) (harg1 : arg1.IsWhole) (arg2 : Memref sig .tc .vmem S12544x128 .bf16) (harg2 : arg2.IsWhole)
    (arg3 : Memref sig .tc .vmem S64x128 .f32) (harg3 : arg3.IsWhole) (arg4 : Memref sig .tc .vmem S64x128 .f32) (harg4 : arg4.IsWhole)
    (hc0 : ¬cond2_0 i) (hc1 : cond2_1 i)
    (x0 : Vec F S1x12544 .i32) (x1 : Vec F S12544x128 .bf16) (xs : Vec F S64x128 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (acc2 x0 xs x1) ∗ owns (c : Thread nD τ) arg4 fullShare (acc2 x0 xs x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [acc2_eq, View.read_writes_eq_canon _ _ _ (cover_acc _ _), canon_acc,
      View.readCov_eq_canon_ld _ _ _ (cover_acc _ _), canon_acc, ld_acc,
      View.readAt_eq_ld, View.readAt_eq_ld, View.readAt_eq_ld, ld_ids, ld_acc, ld_rows]
  iexists _; isplitr
  swap; · iexact HS
  ipureintro
  unfold acc2
  exact View.read_writes_eq_canon _ _ _ (cover_acc _ _)

theorem scratch_mem2 : cc2_scratch0 ∈ ((Finset.univ.filter fun b : Ref sig .tc => b.isScoped) \ Finset.univ.image (Pipeline.stageRef spec2)) := by
  decide

theorem PhiA2_eq (c : Dev nD) :
    (Pipeline.ΦA spec2 c : sProp 𝕄) = iprop((∃ d, owns (c : Thread nD τ) scM2 fullShare d) ∗ rest2 c) := by
  unfold Pipeline.ΦA Pipeline.scopedRest rest2
  rw [bigSep_erase scratch_mem2]
  simp only [scM2, owns_whole]
  exact equiv_iff.mp ⟨sep_assoc, sep_assoc'⟩

theorem sc2_at_zero (c : Dev nD) (t : Fin cfg2.N) (h0 : t.val = 0) :
    sc2 V c t.val t.isLt = acc2 (iblk2 V c 0 t) zero2 (iblk2 V c 1 t) := by
  obtain ⟨n, hn⟩ := t
  cases n with
  | zero => rfl
  | succ n => exact absurd h0 (Nat.succ_ne_zero n)

theorem sc2_at_pos (c : Dev nD) (t : Fin cfg2.N) (h0 : t.val ≠ 0) :
    sc2 V c t.val t.isLt = acc2 (iblk2 V c 0 t) (sc2 V c (t.val - 1) (Nat.lt_of_le_of_lt (Nat.sub_le _ _) t.isLt)) (iblk2 V c 1 t) := by
  obtain ⟨n, hn⟩ := t
  cases n with
  | zero => exact absurd rfl h0
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

theorem before2 (c : Dev nD) (t : Fin cfg2.N) :
    (∀ d, (dat2 V c).before 0 t d = iblk2 V c 0 t)
    ∧ (∀ d, (dat2 V c).before 1 t d = iblk2 V c 1 t) := by
  and_intros <;> intro d <;>
  exact ((dat2 V c).before_in_eq_fetched _ rfl (fun _ => rfl) (fun _ _ _ => rfl)
      (fun t => by unfold Dat.blockOf; dsimp only [dat2]; unfold iblk2; try rfl) t d).trans
    (by unfold Dat.fetched Dat.blockOf iblk2; dsimp only [dat2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [(before2 V c t).1, (before2 V c t).2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 8 := lt_of_lt_of_eq t.isLt (show cfg2.N = 8 from N_2)
  by_cases h0 : t.val = 0
  · have h1 : ¬t.val = 7 := by omega
    rw [Dat.leavesExact_idle (dat2 V c) 2 t (idleAt2_2 t (fun h => h1 ((hcond2_1 t).mp h))) (noFlush2_2 t (fun h => h1 ((hcond2_1 t).mp h)))]
    rw [PhiS2_castSucc V c t, PhiS2_zero V c _ _ h0, PhiA2_eq, sc2_at_zero V c t h0]
    iintro ⟨⟨HS, HR⟩, Ho, ⟨%d0, H0⟩, ⟨%d1, H1⟩, H2⟩
    iapply (sound_kernel2_first c Set.univ (grid2.coords t) _ _ _ _ _ _ _ _ ((hcond2_0 t).mpr h0) (fun h => h1 ((hcond2_1 t).mp h)) (iblk2 V c 0 t) (iblk2 V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    iexact H2
  · by_cases h1 : t.val = 7
    · rw [show (dat2 V c).leavesExact 2 t = owns (c : Thread nD τ) (st2_2 t) fullShare ((dat2 V c).after 2 t) from by
        unfold Dat.leavesExact; rw [liveAt2_2 t ((hcond2_1 t).mpr h1)], after2_2]
      rw [PhiS2_castSucc V c t, PhiS2_pos V c _ _ h0, sc2_at_pos V c t h0]
      iintro ⟨⟨HS, HR⟩, Ho, ⟨%d0, H0⟩, ⟨%d1, H1⟩, ⟨%d2, H2⟩⟩
      iapply (sound_kernel2_last c Set.univ (grid2.coords t) _ _ _ _ _ _ _ _ (fun h => h0 ((hcond2_0 t).mp h)) ((hcond2_1 t).mpr h1) (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t (fun h => h1 ((hcond2_1 t).mp h)))]
      rw [PhiS2_castSucc V c t, PhiS2_pos V c _ _ h0, sc2_at_pos V c t h0]
      iintro ⟨⟨HS, HR⟩, Ho, ⟨%d0, H0⟩, ⟨%d1, H1⟩, H2⟩
      iapply (sound_kernel2_mid c Set.univ (grid2.coords t) _ _ _ _ _ _ _ _ (fun h => h0 ((hcond2_0 t).mp h)) (fun h => h1 ((hcond2_1 t).mp h)) (iblk2 V c 0 t) (iblk2 V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, HR⟩
  isplitl [HS]
  · iexists _; iexact HS
  iexact HR

theorem hout2 (c : Dev nD) : (dat2 V c).Φ (Fin.last cfg2.N) ⊢ Pipeline.ΦA spec2 c :=
  Phi_out2 V c _ (by rw [Fin.val_last]; have : cfg2.N = 8 := N_2; omega)

end Cert.KernelIdeal.Hand

end
-- ==== Proof.KI.Reg3.lean ====
import proofs.«428478_j66365834658323_2_alg».proof.Proof.Gen.KernelIdeal.Launch
import proofs.«428478_j66365834658323_2_alg».proof.Proof.Gen.KernelIdeal.Skeleton
import proofs.«428478_j66365834658323_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rFeat : Rect S64x356 := Rect.unit (s := S64x356) ![0, 0] S64x356.size inb_S64x356_S64x356_0_0
abbrev rW1 : Rect S356x128 := Rect.unit (s := S356x128) ![0, 0] S356x128.size inb_S356x128_S356x128_0_0
abbrev rBias : Rect S1x128 := Rect.unit (s := S1x128) ![0, 0] S1x128.size inb_S1x128_S1x128_0_0
abbrev rW2 : Rect S128x128 := Rect.unit (s := S128x128) ![0, 0] S128x128.size inb_S128x128_S128x128_0_0
abbrev rWa : Rect S128x200 := Rect.unit (s := S128x200) ![0, 0] S128x200.size inb_S128x200_S128x200_0_0
abbrev rBa : Rect S1x200 := Rect.unit (s := S1x200) ![0, 0] S1x200.size inb_S1x200_S1x200_0_0
abbrev rWb : Rect S128x4000 := Rect.unit (s := S128x4000) ![0, 0] S128x4000.size inb_S128x4000_S128x4000_0_0
abbrev rBb : Rect S1x4000 := Rect.unit (s := S1x4000) ![0, 0] S1x4000.size inb_S1x4000_S1x4000_0_0
abbrev rOutA : Rect S64x200 := Rect.unit (s := S64x200) ![0, 0] S64x200.size inb_S64x200_S64x200_0_0
abbrev rOutB : Rect S64x4000 := Rect.unit (s := S64x4000) ![0, 0] S64x4000.size inb_S64x4000_S64x4000_0_0

def out3_9 (x0 : Vec F S64x356 .f32) (x1 : Vec F S356x128 .f32) (x2 : Vec F S1x128 .f32) (x3 : Vec F S128x128 .f32)
    (x4 : Vec F S1x128 .f32) (x5 : Vec F S128x200 .f32) (x6 : Vec F S1x200 .f32) : Vec F S64x200 .f32 :=
  View.canon [⟨rOutA, k3_pay3 (View.ld x0 rFeat) (View.ld x1 rW1) (View.ld x2 rBias) (View.ld x3 rW2) (View.ld x4 rBias)
    (View.ld x5 rWa) (View.ld x6 rBa)⟩]

def out3_10 (x0 : Vec F S64x356 .f32) (x1 : Vec F S356x128 .f32) (x2 : Vec F S1x128 .f32) (x3 : Vec F S128x128 .f32)
    (x4 : Vec F S1x128 .f32) (x7 : Vec F S128x4000 .f32) (x8 : Vec F S1x4000 .f32) : Vec F S64x4000 .f32 :=
  View.canon [⟨rOutB, k3_pay1 (k3_pay4 (View.ld x0 rFeat) (View.ld x1 rW1) (View.ld x2 rBias) (View.ld x3 rW2) (View.ld x4 rBias)
    (View.ld x7 rWb)) (View.ld x8 rBb)⟩]

theorem cover3_9 (p : Vec F S64x200 .f32) (y : S64x200.Idx) :
    ∃ pc ∈ ([⟨rOutA, p⟩] : List (View.Piece (Elt F) S64x200 .f32)), y ∈ pc.1.set :=
  View.cover_of_tiled [⟨rOutA, p⟩] S64x200.size (by rfl) y

theorem cover3_10 (p : Vec F S64x4000 .f32) (y : S64x4000.Idx) :
    ∃ pc ∈ ([⟨rOutB, p⟩] : List (View.Piece (Elt F) S64x4000 .f32)), y ∈ pc.1.set :=
  View.cover_of_tiled [⟨rOutB, p⟩] S64x4000.size (by rfl) y

theorem offsets_zero : (![0, 0] : Fin 2 → Nat) = fun _ => 0 := funext fun a => by fin_cases a <;> rfl

theorem out3_9_eq (x0 : Vec F S64x356 .f32) (x1 : Vec F S356x128 .f32) (x2 : Vec F S1x128 .f32) (x3 : Vec F S128x128 .f32)
    (x4 : Vec F S1x128 .f32) (x5 : Vec F S128x200 .f32) (x6 : Vec F S1x200 .f32) :
    out3_9 x0 x1 x2 x3 x4 x5 x6 = k3_pay3 x0 x1 x2 x3 x4 x5 x6 := by
  unfold out3_9
  rw [View.canon_unit_zero (S := S64x200) offsets_zero inb_S64x200_S64x200_0_0,
    View.ld_unit_zero (S := S64x356) offsets_zero inb_S64x356_S64x356_0_0,
    View.ld_unit_zero (S := S356x128) offsets_zero inb_S356x128_S356x128_0_0,
    View.ld_unit_zero (S := S1x128) offsets_zero inb_S1x128_S1x128_0_0,
    View.ld_unit_zero (S := S128x128) offsets_zero inb_S128x128_S128x128_0_0,
    View.ld_unit_zero (S := S1x128) offsets_zero inb_S1x128_S1x128_0_0,
    View.ld_unit_zero (S := S128x200) offsets_zero inb_S128x200_S128x200_0_0,
    View.ld_unit_zero (S := S1x200) offsets_zero inb_S1x200_S1x200_0_0]

theorem out3_10_eq (x0 : Vec F S64x356 .f32) (x1 : Vec F S356x128 .f32) (x2 : Vec F S1x128 .f32) (x3 : Vec F S128x128 .f32)
    (x4 : Vec F S1x128 .f32) (x7 : Vec F S128x4000 .f32) (x8 : Vec F S1x4000 .f32) :
    out3_10 x0 x1 x2 x3 x4 x7 x8 = k3_pay1 (k3_pay4 x0 x1 x2 x3 x4 x7) x8 := by
  unfold out3_10
  rw [View.canon_unit_zero (S := S64x4000) offsets_zero inb_S64x4000_S64x4000_0_0,
    View.ld_unit_zero (S := S64x356) offsets_zero inb_S64x356_S64x356_0_0,
    View.ld_unit_zero (S := S356x128) offsets_zero inb_S356x128_S356x128_0_0,
    View.ld_unit_zero (S := S1x128) offsets_zero inb_S1x128_S1x128_0_0,
    View.ld_unit_zero (S := S128x128) offsets_zero inb_S128x128_S128x128_0_0,
    View.ld_unit_zero (S := S1x128) offsets_zero inb_S1x128_S1x128_0_0,
    View.ld_unit_zero (S := S128x4000) offsets_zero inb_S128x4000_S128x4000_0_0,
    View.ld_unit_zero (S := S1x4000) offsets_zero inb_S1x4000_S1x4000_0_0]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t)
    | ⟨10, _⟩ => out3_10 (iblk3 V c 0 t) (iblk3 V c 1 t) (iblk3 V c 2 t) (iblk3 V c 3 t) (iblk3 V c 4 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t =
    out3_9 (iblk3 V c 0 t) (iblk3 V c 1 t) (iblk3 V c 2 t) (iblk3 V c 3 t) (iblk3 V c 4 t) (iblk3 V c 5 t) (iblk3 V c 6 t) := by
  dsimp only [dat3]
theorem after3_10 (c : Dev nD) (t : Fin cfg3.N) : (dat3 V c).after 10 t =
    out3_10 (iblk3 V c 0 t) (iblk3 V c 1 t) (iblk3 V c 2 t) (iblk3 V c 3 t) (iblk3 V c 4 t) (iblk3 V c 7 t) (iblk3 V c 8 t) := by
  dsimp only [dat3]

set_option maxHeartbeats 4000000 in

theorem sound_kernel3 (c : Dev nD) (E : Set ℕ) (i : grid3.Coords)
    (arg1 : Memref sig .tc .vmem S64x356 .f32) (harg1 : arg1.IsWhole) (arg2 : Memref sig .tc .vmem S356x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x200 .f32) (harg6 : arg6.IsWhole)
    (arg7 : Memref sig .tc .vmem S1x200 .f32) (harg7 : arg7.IsWhole) (arg8 : Memref sig .tc .vmem S128x4000 .f32) (harg8 : arg8.IsWhole)
    (arg9 : Memref sig .tc .vmem S1x4000 .f32) (harg9 : arg9.IsWhole) (arg10 : Memref sig .tc .vmem S64x200 .f32) (harg10 : arg10.IsWhole)
    (arg11 : Memref sig .tc .vmem S64x4000 .f32) (harg11 : arg11.IsWhole)
    (x0 : Vec F S64x356 .f32) (x1 : Vec F S356x128 .f32) (x2 : Vec F S1x128 .f32) (x3 : Vec F S128x128 .f32) (x4 : Vec F S1x128 .f32)
    (x5 : Vec F S128x200 .f32) (x6 : Vec F S1x200 .f32) (x7 : Vec F S128x4000 .f32) (x8 : Vec F S1x4000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out3_9 x0 x1 x2 x3 x4 x5 x6)
            ∗ owns (c : Thread nD τ) arg11 fullShare (out3_10 x0 x1 x2 x3 x4 x7 x8)) -∗ K ⟨⟩))
      ⊢ wp frame (wpE (defs₀ (F := F)) Variants.none c none) E
          (cc3__mlp_head_kernel i arg1 harg1 arg2 harg2 arg3 harg3 arg4 harg4 arg5 harg5 arg6 harg6 arg7 harg7 arg8 harg8 arg9 harg9
            arg10 harg10 arg11 harg11) K := by
  simp only [cc3__mlp_head_kernel_eq_skeleton]; unfold cc3__mlp_head_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover3_9 _)
  iexists _; isplitr
  swap; · iexact H10
  ipureintro
  exact View.read_writes_eq_canon _ _ _ (cover3_10 _)

theorem before3 (c : Dev nD) (t : Fin cfg3.N) :
    (∀ d, (dat3 V c).before 0 t d = iblk3 V c 0 t)
    ∧ (∀ d, (dat3 V c).before 1 t d = iblk3 V c 1 t)
    ∧ (∀ d, (dat3 V c).before 2 t d = iblk3 V c 2 t)
    ∧ (∀ d, (dat3 V c).before 3 t d = iblk3 V c 3 t)
    ∧ (∀ d, (dat3 V c).before 4 t d = iblk3 V c 4 t)
    ∧ (∀ d, (dat3 V c).before 5 t d = iblk3 V c 5 t)
    ∧ (∀ d, (dat3 V c).before 6 t d = iblk3 V c 6 t)
    ∧ (∀ d, (dat3 V c).before 7 t d = iblk3 V c 7 t)
    ∧ (∀ d, (dat3 V c).before 8 t d = iblk3 V c 8 t) := by
  and_intros <;> intro d <;>
  exact ((dat3 V c).before_in_eq_fetched _ rfl (fun _ => rfl) (fun _ _ _ => rfl)
      (fun t => by unfold Dat.blockOf; dsimp only [dat3]; unfold iblk3; try rfl) t d).trans
    (by unfold Dat.fetched Dat.blockOf iblk3; dsimp only [dat3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2.1, (before3 V c t).2.2.1, (before3 V c t).2.2.2.1, (before3 V c t).2.2.2.2.1, (before3 V c t).2.2.2.2.2.1, (before3 V c t).2.2.2.2.2.2.1, (before3 V c t).2.2.2.2.2.2.2.1, (before3 V c t).2.2.2.2.2.2.2.2]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩⟩
  iapply (sound_kernel3 c Set.univ (grid3.coords t) _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t)
    (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Outs.lean ====
import proofs.«428478_j66365834658323_2_alg».proof.Proof.KI.Reg0
import proofs.«428478_j66365834658323_2_alg».proof.Proof.KI.Reg1
import proofs.«428478_j66365834658323_2_alg».proof.Proof.KI.Reg2
import proofs.«428478_j66365834658323_2_alg».proof.Proof.KI.Reg3
import proofs.«428478_j66365834658323_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev launchAt (r : Ref sig .tc) (c : Dev nD) : Buf (Elt F) ((c : Thread nD τ).loc r) := m ((c : Thread nD τ).loc r)

abbrev In0 : (c : Dev nD) → (b : Ref sig .tc) → Buf (Elt F) ((c : Thread nD τ).loc b) := fun c b => Gen.V1 m c b

def left0 (c : Dev nD) : Buf (Elt F) ((c : Thread nD τ).loc main_v30) := (dat0 (In0 m) c).arrAt 2 cfg0.N

def outsA : Gen.Outs (F := F) := fun J r c =>
  match J with
  | 2 => if h : r = main_v30 then h ▸ left0 m c else launchAt m r c
  | _ => launchAt m r c

abbrev In1 : (c : Dev nD) → (b : Ref sig .tc) → Buf (Elt F) ((c : Thread nD τ).loc b) := fun c b => Gen.V5 m (outsA m) c b

def left1 (c : Dev nD) : Buf (Elt F) ((c : Thread nD τ).loc main_v49) := (dat1 (In1 m) c).arrAt 2 cfg1.N

def outsB : Gen.Outs (F := F) := fun J r c =>
  match J with
  | 2 => if h : r = main_v30 then h ▸ left0 m c else launchAt m r c
  | 6 => if h : r = main_v49 then h ▸ left1 m c else launchAt m r c
  | _ => launchAt m r c

abbrev In2 : (c : Dev nD) → (b : Ref sig .tc) → Buf (Elt F) ((c : Thread nD τ).loc b) := fun c b => Gen.V11 m (outsB m) c b

def left2 (c : Dev nD) : Buf (Elt F) ((c : Thread nD τ).loc main_v77) := (dat2 (In2 m) c).arrAt 2 cfg2.N

def outsC : Gen.Outs (F := F) := fun J r c =>
  match J with
  | 2 => if h : r = main_v30 then h ▸ left0 m c else launchAt m r c
  | 6 => if h : r = main_v49 then h ▸ left1 m c else launchAt m r c
  | 12 => if h : r = main_v77 then h ▸ left2 m c else launchAt m r c
  | _ => launchAt m r c

abbrev In3 : (c : Dev nD) → (b : Ref sig .tc) → Buf (Elt F) ((c : Thread nD τ).loc b) := fun c b => Gen.V13 m (outsC m) c b

def left3a (c : Dev nD) : Buf (Elt F) ((c : Thread nD τ).loc main_v90_0) := (dat3 (In3 m) c).arrAt 9 cfg3.N
def left3b (c : Dev nD) : Buf (Elt F) ((c : Thread nD τ).loc main_v90_1) := (dat3 (In3 m) c).arrAt 10 cfg3.N

def outs : Gen.Outs (F := F) := fun J r c =>
  match J with
  | 2 => if h : r = main_v30 then h ▸ left0 m c else launchAt m r c
  | 6 => if h : r = main_v49 then h ▸ left1 m c else launchAt m r c
  | 12 => if h : r = main_v77 then h ▸ left2 m c else launchAt m r c
  | 14 => if h : r = main_v90_0 then h ▸ left3a m c else if h' : r = main_v90_1 then h' ▸ left3b m c else launchAt m r c
  | _ => launchAt m r c

theorem outs_2 (c : Dev nD) : outs m 2 main_v30 c = left0 m c := by
  show (if h : main_v30 = main_v30 then h ▸ left0 m c else launchAt m main_v30 c) = _
  rw [dif_pos rfl]
theorem outs_6 (c : Dev nD) : outs m 6 main_v49 c = left1 m c := by
  show (if h : main_v49 = main_v49 then h ▸ left1 m c else launchAt m main_v49 c) = _
  rw [dif_pos rfl]
theorem outs_12 (c : Dev nD) : outs m 12 main_v77 c = left2 m c := by
  show (if h : main_v77 = main_v77 then h ▸ left2 m c else launchAt m main_v77 c) = _
  rw [dif_pos rfl]
theorem outs_14a (c : Dev nD) : outs m 14 main_v90_0 c = left3a m c := by
  show (if h : main_v90_0 = main_v90_0 then h ▸ left3a m c else if h' : main_v90_0 = main_v90_1 then h' ▸ left3b m c else launchAt m main_v90_0 c) = _
  rw [dif_pos rfl]
theorem outs_14b (c : Dev nD) : outs m 14 main_v90_1 c = left3b m c := by
  show (if h : main_v90_1 = main_v90_0 then h ▸ left3a m c else if h' : main_v90_1 = main_v90_1 then h' ▸ left3b m c else launchAt m main_v90_1 c) = _
  rw [dif_neg (by decide), dif_pos rfl]

theorem V5_outs (c : Dev nD) : Gen.V5 m (outs m) c = Gen.V5 m (outsA m) c := rfl
theorem V11_outs (c : Dev nD) : Gen.V11 m (outs m) c = Gen.V11 m (outsB m) c := rfl
theorem V13_outs (c : Dev nD) : Gen.V13 m (outs m) c = Gen.V13 m (outsC m) c := rfl

def pdats : (p : Fin 4) → (c : Dev nD) → Dat τ (Elt F) Unit ℕ (UR sig nD τ) ℕ (cfgs p) c
  | ⟨0, _⟩ => fun c => dat0 (In0 m) c
  | ⟨1, _⟩ => fun c => dat1 (In1 m) c
  | ⟨2, _⟩ => fun c => dat2 (In2 m) c
  | ⟨3, _⟩ => fun c => dat3 (In3 m) c

end Cert.KernelIdeal.Hand

end
-- ==== Proof.KI.Segs.lean ====
import proofs.«428478_j66365834658323_2_alg».proof.Proof.KI.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱 : Variants := Variants.none

abbrev Lp : GSem nD τ sig → Finset Unit := fun _ => ∅
abbrev lvp : GSem nD τ sig → Unit → ℕ := fun _ _ => 0

abbrev Rst (c : Dev nD) : sProp 𝕄 := iprop((∃ r, prngReg c r) ∗ ∃ W, owes (c : Thread nD τ) (0 : CellTallies nD τ sig Unit) W)

abbrev Out0 : (c : Dev nD) → (b : Ref sig .tc) → Buf (Elt F) ((c : Thread nD τ).loc b) := fun c b => Gen.V2 m (outs m) c b
abbrev Out1 : (c : Dev nD) → (b : Ref sig .tc) → Buf (Elt F) ((c : Thread nD τ).loc b) := fun c b => Gen.V6 m (outs m) c b
abbrev Out2 : (c : Dev nD) → (b : Ref sig .tc) → Buf (Elt F) ((c : Thread nD τ).loc b) := fun c b => Gen.V12 m (outs m) c b
abbrev Out3 : (c : Dev nD) → (b : Ref sig .tc) → Buf (Elt F) ((c : Thread nD τ).loc b) := fun c b => Gen.V14 m (outs m) c b

theorem Out0_v30 (c : Dev nD) : Out0 m c main_v30 = left0 m c := by
  show Function.update (Gen.V1 m c) _ _ _ = _
  rw [Function.update_self, outs_2]
theorem Out1_v49 (c : Dev nD) : Out1 m c main_v49 = left1 m c := by
  show Function.update (Gen.V5 m (outs m) c) _ _ _ = _
  rw [Function.update_self, outs_6]
theorem Out2_v77 (c : Dev nD) : Out2 m c main_v77 = left2 m c := by
  show Function.update (Gen.V11 m (outs m) c) _ _ _ = _
  rw [Function.update_self, outs_12]
theorem Out3_v90_1 (c : Dev nD) : Out3 m c main_v90_1 = left3b m c := by
  show Function.update (Function.update (Gen.V13 m (outs m) c) _ _) _ _ _ = _
  rw [Function.update_self, outs_14b]
theorem Out3_v90_0 (c : Dev nD) : Out3 m c main_v90_0 = left3a m c := by
  show Function.update (Function.update (Gen.V13 m (outs m) c) _ _) _ _ _ = _
  rw [Function.update_of_ne (StableHlo.devRef_ne_of_ne (by decide) : (Proc.devRef .tc main_v90_0 : DevRef τ sig) ≠ Proc.devRef .tc main_v90_1),
    Function.update_self, outs_14a]

theorem In1_eq (c : Dev nD) (r : Ref sig .tc) : In1 m c r = Gen.V5 m (outs m) c r := (congrFun (V5_outs m c) (Proc.devRef .tc r)).symm
theorem In2_eq (c : Dev nD) (r : Ref sig .tc) : In2 m c r = Gen.V11 m (outs m) c r := (congrFun (V11_outs m c) (Proc.devRef .tc r)).symm
theorem In3_eq (c : Dev nD) (r : Ref sig .tc) : In3 m c r = Gen.V13 m (outs m) c r := (congrFun (V13_outs m c) (Proc.devRef .tc r)).symm

theorem In0_Out0 (c : Dev nD) (r : Ref sig .tc) (h : r ∉ ([main_v30] : List (Ref sig .tc))) : In0 m c r = Out0 m c r := (Gen.V2_of m (outs m) c r h).symm
theorem In1_Out1 (c : Dev nD) (r : Ref sig .tc) (h : r ∉ ([main_v49] : List (Ref sig .tc))) : In1 m c r = Out1 m c r := (In1_eq m c r).trans (Gen.V6_of m (outs m) c r h).symm
theorem In2_Out2 (c : Dev nD) (r : Ref sig .tc) (h : r ∉ ([main_v77] : List (Ref sig .tc))) : In2 m c r = Out2 m c r := (In2_eq m c r).trans (Gen.V12_of m (outs m) c r h).symm
theorem In3_Out3 (c : Dev nD) (r : Ref sig .tc) (h : r ∉ ([main_v90_0, main_v90_1] : List (Ref sig .tc))) : In3 m c r = Out3 m c r := (In3_eq m c r).trans (Gen.V14_of m (outs m) c r h).symm

theorem hF0 (c : Dev nD) (w : Fin cfg0.W) : (dat0 (In0 m) c).arrAt w cfg0.N = Out0 m c (Pipeline.arrRef spec0 w) :=
  match w with
  | ⟨0, _⟩ => ((dat0 (In0 m) c).arrAt_in 0 rfl _).trans ((A_eq0 (In0 m) c 0).trans (In0_Out0 m c main_v29 (by decide)))
  | ⟨1, _⟩ => ((dat0 (In0 m) c).arrAt_in 1 rfl _).trans ((A_eq0 (In0 m) c 1).trans (In0_Out0 m c main_v27 (by decide)))
  | ⟨2, _⟩ => (Out0_v30 m c).symm
theorem hrest0 (c : Dev nD) : ∀ b, b ∉ Finset.univ.image (Pipeline.arrRef spec0) → Out0 m c b = In0 m c b :=
  fun b hb => (In0_Out0 m c b (fun h => hb (Finset.mem_image.mpr ⟨2, Finset.mem_univ _, (List.mem_singleton.mp h).symm⟩))).symm

theorem hF1 (c : Dev nD) (w : Fin cfg1.W) : (dat1 (In1 m) c).arrAt w cfg1.N = Out1 m c (Pipeline.arrRef spec1 w) :=
  match w with
  | ⟨0, _⟩ => ((dat1 (In1 m) c).arrAt_in 0 rfl _).trans ((A_eq1 (In1 m) c 0).trans (In1_Out1 m c main_v48 (by decide)))
  | ⟨1, _⟩ => ((dat1 (In1 m) c).arrAt_in 1 rfl _).trans ((A_eq1 (In1 m) c 1).trans (In1_Out1 m c main_v28 (by decide)))
  | ⟨2, _⟩ => (Out1_v49 m c).symm
theorem hrest1 (c : Dev nD) : ∀ b, b ∉ Finset.univ.image (Pipeline.arrRef spec1) → Out1 m c b = In1 m c b :=
  fun b hb => (In1_Out1 m c b (fun h => hb (Finset.mem_image.mpr ⟨2, Finset.mem_univ _, (List.mem_singleton.mp h).symm⟩))).symm

theorem hF2 (c : Dev nD) (w : Fin cfg2.W) : (dat2 (In2 m) c).arrAt w cfg2.N = Out2 m c (Pipeline.arrRef spec2 w) :=
  match w with
  | ⟨0, _⟩ => ((dat2 (In2 m) c).arrAt_in 0 rfl _).trans ((A_eq2 (In2 m) c 0).trans (In2_Out2 m c main_v76 (by decide)))
  | ⟨1, _⟩ => ((dat2 (In2 m) c).arrAt_in 1 rfl _).trans ((A_eq2 (In2 m) c 1).trans (In2_Out2 m c main_v74 (by decide)))
  | ⟨2, _⟩ => (Out2_v77 m c).symm
theorem hrest2 (c : Dev nD) : ∀ b, b ∉ Finset.univ.image (Pipeline.arrRef spec2) → Out2 m c b = In2 m c b :=
  fun b hb => (In2_Out2 m c b (fun h => hb (Finset.mem_image.mpr ⟨2, Finset.mem_univ _, (List.mem_singleton.mp h).symm⟩))).symm

set_option maxHeartbeats 4000000 in
theorem hF3 (c : Dev nD) (w : Fin cfg3.W) : (dat3 (In3 m) c).arrAt w cfg3.N = Out3 m c (Pipeline.arrRef spec3 w) :=
  match w with
  | ⟨0, _⟩ => ((dat3 (In3 m) c).arrAt_in 0 rfl _).trans ((A_eq3 (In3 m) c 0).trans (In3_Out3 m c main_v85 (by decide)))
  | ⟨1, _⟩ => ((dat3 (In3 m) c).arrAt_in 1 rfl _).trans ((A_eq3 (In3 m) c 1).trans (In3_Out3 m c main_arg8 (by decide)))
  | ⟨2, _⟩ => ((dat3 (In3 m) c).arrAt_in 2 rfl _).trans ((A_eq3 (In3 m) c 2).trans (In3_Out3 m c main_v86 (by decide)))
  | ⟨3, _⟩ => ((dat3 (In3 m) c).arrAt_in 3 rfl _).trans ((A_eq3 (In3 m) c 3).trans (In3_Out3 m c main_arg10 (by decide)))
  | ⟨4, _⟩ => ((dat3 (In3 m) c).arrAt_in 4 rfl _).trans ((A_eq3 (In3 m) c 4).trans (In3_Out3 m c main_v87 (by decide)))
  | ⟨5, _⟩ => ((dat3 (In3 m) c).arrAt_in 5 rfl _).trans ((A_eq3 (In3 m) c 5).trans (In3_Out3 m c main_arg12 (by decide)))
  | ⟨6, _⟩ => ((dat3 (In3 m) c).arrAt_in 6 rfl _).trans ((A_eq3 (In3 m) c 6).trans (In3_Out3 m c main_v88 (by decide)))
  | ⟨7, _⟩ => ((dat3 (In3 m) c).arrAt_in 7 rfl _).trans ((A_eq3 (In3 m) c 7).trans (In3_Out3 m c main_arg14 (by decide)))
  | ⟨8, _⟩ => ((dat3 (In3 m) c).arrAt_in 8 rfl _).trans ((A_eq3 (In3 m) c 8).trans (In3_Out3 m c main_v89 (by decide)))
  | ⟨9, _⟩ => (Out3_v90_0 m c).symm
  | ⟨10, _⟩ => (Out3_v90_1 m c).symm
theorem hrest3 (c : Dev nD) : ∀ b, b ∉ Finset.univ.image (Pipeline.arrRef spec3) → Out3 m c b = In3 m c b :=
  fun b hb => (In3_Out3 m c b (fun h => by
    rcases List.mem_cons.mp h with h | h
    · exact hb (Finset.mem_image.mpr ⟨9, Finset.mem_univ _, h.symm⟩)
    · exact hb (Finset.mem_image.mpr ⟨10, Finset.mem_univ _, (List.mem_singleton.mp h).symm⟩))).symm

set_option backward.isDefEq.respectTransparency.types false in

def reg0 : Pipeline.RegionSeg (pcfgs (F := F)) Gen.adm (pdats m) () defs₀ 𝒱 Lp lvp 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ Lp lvp 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (In0 m c) (Out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m) () defs₀ 𝒱 Lp lvp 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ Lp lvp 1 fun _ _ => rfl
  pre c := iprop(StableHlo.held (c : Thread nD τ) (Pipeline.ucRefs τ sig) (Gen.V5 m (outsA m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) Gen.adm (pdats m) () defs₀ 𝒱 Lp lvp 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ Lp lvp 2 fun _ _ => rfl
  pre c := iprop(StableHlo.held (c : Thread nD τ) (Pipeline.ucRefs τ sig) (Gen.V11 m (outsB m) c) ∗ Rst c)
  post c := iprop(StableHlo.held (c : Thread nD τ) (Pipeline.ucRefs τ sig) (Gen.V12 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (In2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec2 c from by
      unfold Pipeline.ΦA
      iintro ⟨Hp, -, Hr⟩
      isplitl [Hr]; · iexact Hr
      iexact Hp).trans (hin2 (In2 m) c)
  hout c := by
    refine (hout2 (In2 m) c).trans (show Pipeline.ΦA spec2 c ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (In2 m c) (Out2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) Gen.adm (pdats m) () defs₀ 𝒱 Lp lvp 3 where
  win := launch3.win.to₀
  block_pos := launch3.block_pos
  stage_whole := launch3.stage_whole
  K := PEmpty
  osem k := k.elim
  ho := Pipeline.OwnSemFacts.none _
  hbody c := (body_obligation3 (In3 m) c).loose
  hwaits := Pipeline.hwaits_of_owed_zero _ _ _ _ Lp lvp 3 fun _ _ => rfl
  pre c := iprop(StableHlo.held (c : Thread nD τ) (Pipeline.ucRefs τ sig) (Gen.V13 m (outsC m) c) ∗ Rst c)
  post c := iprop(StableHlo.held (c : Thread nD τ) (Pipeline.ucRefs τ sig) (Gen.V14 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (In3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (In3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (In3 m c) (Out3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lp lvp)
      ⊢ (|={Set.univ}=> bigSep Finset.univ (fun c : Dev nD => Rst (F := F) c) : sProp 𝕄) := by
  refine Pipeline.initEach Lp lvp fun c => ?_
  iintro ⟨⟨-, HO, -, Hp, -⟩, -⟩
  imodintro
  isplitl [Hp]; · iexists _; iexact Hp
  iexists ∅; iexact HO

theorem rest_end (c : Dev nD) : Rst (F := F) c ⊢ (iprop(∃ W, owes (c : Thread nD τ) (0 : CellTallies nD τ sig Unit) W) : sProp 𝕄) := by
  iintro ⟨-, HO⟩; iexact HO

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond m emb₁ () 𝒱 Lp lvp (fun _ _ => rfl) ρ (outs m) (pdats m) 0 (fun _ => (BI.emp : sProp 𝕄))
    (initOf (Pipeline.cells cfgs cellOf_inj) (Pipeline.launchToks cfgs cellOf_inj)) launch_ghost
    (fun _ c => Rst c) (rest_init ρ) rest_end
    (reg0 m) (fun _ => .rfl) (fun _ => .rfl)
    (reg1 m) (fun c => by rw [V5_outs]; exact .rfl) (fun _ => .rfl)
    (reg2 m) (fun c => by rw [V11_outs]; exact .rfl) (fun _ => .rfl)
    (reg3 m) (fun c => by rw [V13_outs]; exact .rfl) (fun _ => .rfl)

end Cert.KernelIdeal.Hand

end
-- ==== Proof.KI.Run.lean ====
import proofs.«428478_j66365834658323_2_alg».proof.Proof.KI.Segs
import proofs.«428478_j66365834658323_2_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run (ρ : Dev nD → PrngReg) :
    θ_run defs (onTc (τ := τ) (main (F := F))) ⟨m, fun _ => 0, ρ⟩ (fun r => ∀ c : Dev nD,
      r.2.mem ((c.tc : Thread nD τ).loc main_v103) = Gen.V15 m (outs m) c main_v103
      ∧ r.2.mem ((c.tc : Thread nD τ).loc main_v114) = Gen.V15 m (outs m) c main_v114
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  GenP.run_cond m emb₁ () 𝒱 Lp lvp (fun _ _ => rfl) ρ (outs m) (pdats m) 0 (fun _ => (BI.emp : sProp 𝕄))
    (initOf (Pipeline.cells cfgs cellOf_inj) (Pipeline.launchToks cfgs cellOf_inj)) launch_ghost
    (fun _ c => Rst c) (rest_init ρ) rest_end
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.KernelIdeal.Hand

end
-- ==== Proof.RefRun.Ops.lean ====
import proofs.«428478_j66365834658323_2_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops01 : List (HloOp τ sig (Elt F)) :=
  [ unary main_arg1 main_v0 (extractStridedSlice S1x1000000 ![0, 0] · slices_S2x1000000_S1x1000000_0_0),
    reshape main_v0 main_v1 rfl shapeCasts_S1x1000000_S1000000,
    unary main_arg1 main_v2 (extractStridedSlice S1x1000000 ![1, 0] · slices_S2x1000000_S1x1000000_1_0),
    reshape main_v2 main_v3 rfl shapeCasts_S1x1000000_S1000000,
    binary main_arg0 main_arg4 main_v4 (fun l r => Host.dotGeneral dot_S100000x128_S128x128_S100000x128_1_0_0_1_n_n none l r),
    nullary main_v5 (iotaInDim S100000 32 0) ]

abbrev ops01_W : List (Ref sig .tc) := [main_v0, main_v1, main_v2, main_v3, main_v4, main_v5]
theorem ops01_writes : (ops01 : List (HloOp τ sig (Elt F))).Forall fun op => op.writes ⊆ (ops01_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops01_sub : (ops01 : List (HloOp τ sig (Elt F))).Forall fun op => op.bufs ⊆ tcRefs τ sig :=
  ⟨unary_bufs_sub .., reshape_bufs_sub .., unary_bufs_sub .., reshape_bufs_sub .., binary_bufs_sub .., nullary_bufs_sub ..⟩
theorem ops01_fresh : ∀ op ∈ (ops01 : List (HloOp τ sig (Elt F))), op.fresh = ∅ := by
  intro _ h; (repeat (cases h with | head => rfl | tail _ h => ?_)); exact nomatch h

abbrev ops02 : List (HloOp τ sig (Elt F)) :=
  [ binary main_v1 main_v5 main_v6 (fun a b => concatenate S1100000 0 [⟨S1000000, a⟩, ⟨S100000, b⟩] concatenates_S1000000_S100000_S1100000_d0) ]

abbrev ops02_W : List (Ref sig .tc) := [main_v6]
theorem ops02_writes : (ops02 : List (HloOp τ sig (Elt F))).Forall fun op => op.writes ⊆ (ops02_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops02_sub : (ops02 : List (HloOp τ sig (Elt F))).Forall fun op => op.bufs ⊆ tcRefs τ sig :=
  (binary_bufs_sub ..)
theorem ops02_fresh : ∀ op ∈ (ops02 : List (HloOp τ sig (Elt F))), op.fresh = ∅ := by
  intro _ h; (repeat (cases h with | head => rfl | tail _ h => ?_)); exact nomatch h

abbrev ops03 : List (HloOp τ sig (Elt F)) :=
  [ binary main_v3 main_v5 main_v7 (fun a b => concatenate S1100000 0 [⟨S1000000, a⟩, ⟨S100000, b⟩] concatenates_S1000000_S100000_S1100000_d0),
    nullary main_cst (constant S_ .f32 0x3F800000#32),
    unary main_cst main_v8 (broadcastInDim S1100000 ![] bcast_S_S1100000),
    nullary main_cst_0 (constant S_ .f32 0x00000000#32),
    unary main_cst_0 main_v9 (broadcastInDim S100000 ![] bcast_S_S100000),
    unary main_v7 main_v10 (broadcastInDim S1100000x1 ![0] bcast_S1100000_S1100000x1_0),
    ternary main_v9 main_v10 main_v8 main_v11 (fun x i u => Host.scatterAdd scatter_S100000_S1100000x1_S1100000_n_0_0_1 x i u),
    unary main_v11 main_v12 (Host.rsqrt),
    nullary main_c (constantI S_ 32 0#32),
    unary main_c main_v13 (broadcastInDim S1100000 ![] bcast_S_S1100000),
    binary main_v6 main_v13 main_v14 (cmpi .slt),
    nullary main_c_1 (constantI S_ 32 100000#32),
    unary main_c_1 main_v15 (broadcastInDim S1100000 ![] bcast_S_S1100000),
    binary main_v6 main_v15 main_v16 (addi),
    ternary main_v14 main_v16 main_v6 main_v17 (select),
    unary main_v17 main_v18 (broadcastInDim S1100000x1 ![0] bcast_S1100000_S1100000x1_0),
    binary main_v12 main_v18 main_v19 (fun x i => Host.gather gather_S100000_S1100000x1_S1100000_n_0_n_n_0_1_1 x i),
    nullary main_c_2 (constantI S_ 32 0#32),
    unary main_c_2 main_v20 (broadcastInDim S1100000 ![] bcast_S_S1100000),
    binary main_v7 main_v20 main_v21 (cmpi .slt),
    nullary main_c_3 (constantI S_ 32 100000#32),
    unary main_c_3 main_v22 (broadcastInDim S1100000 ![] bcast_S_S1100000),
    binary main_v7 main_v22 main_v23 (addi),
    ternary main_v21 main_v23 main_v7 main_v24 (select),
    unary main_v24 main_v25 (broadcastInDim S1100000x1 ![0] bcast_S1100000_S1100000x1_0),
    binary main_v12 main_v25 main_v26 (fun x i => Host.gather gather_S100000_S1100000x1_S1100000_n_0_n_n_0_1_1 x i),
    binary main_v19 main_v26 main_v27 (mulf) ]

abbrev ops03_W : List (Ref sig .tc) := [main_v7, main_cst, main_v8, main_cst_0, main_v9, main_v10, main_v11, main_v12, main_c, main_v13, main_v14, main_c_1, main_v15, main_v16, main_v17, main_v18, main_v19, main_c_2, main_v20, main_v21, main_c_3, main_v22, main_v23, main_v24, main_v25, main_v26, main_v27]
theorem ops03_writes : (ops03 : List (HloOp τ sig (Elt F))).Forall fun op => op.writes ⊆ (ops03_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops03_sub : (ops03 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops03_fresh : ∀ op ∈ (ops03 : List (HloOp τ sig (Elt F))), op.fresh = ∅ := by
  intro _ h; (repeat (cases h with | head => rfl | tail _ h => ?_)); exact nomatch h

abbrev ops04 : List (HloOp τ sig (Elt F)) :=
  [ nullary main_c_4 (constantI S_ 32 0#32),
    unary main_c_4 main_v28 (broadcastInDim S1100000 ![] bcast_S_S1100000),
    binary main_v6 main_v28 main_v29 (cmpi .slt),
    nullary main_c_5 (constantI S_ 32 100000#32),
    unary main_c_5 main_v30 (broadcastInDim S1100000 ![] bcast_S_S1100000),
    binary main_v6 main_v30 main_v31 (addi),
    ternary main_v29 main_v31 main_v6 main_v32 (select),
    unary main_v32 main_v33 (broadcastInDim S1100000x1 ![0] bcast_S1100000_S1100000x1_0),
    binary main_v4 main_v33 main_v34 (fun x i => Host.gather gather_S100000x128_S1100000x1_S1100000x128_1_0_n_n_0_1_1128 x i),
    unary main_v27 main_v35 (broadcastInDim S1100000x1 ![0] bcast_S1100000_S1100000x1_0),
    unary main_v35 main_v36 (broadcastInDim S1100000x128 ![0, 1] bcast_S1100000x1_S1100000x128_0_1),
    binary main_v34 main_v36 main_v37 (mulf),
    nullary main_cst_6 (constant S_ .f32 0x00000000#32),
    unary main_cst_6 main_v38 (broadcastInDim S100000x128 ![] bcast_S_S100000x128),
    unary main_v7 main_v39 (broadcastInDim S1100000x1 ![0] bcast_S1100000_S1100000x1_0),
    ternary main_v38 main_v39 main_v37 main_v40 (fun x i u => Host.scatterAdd scatter_S100000x128_S1100000x1_S1100000x128_1_0_0_1 x i u),
    unary main_arg5 main_v41 (broadcastInDim S1x128 ![1] bcast_S128_S1x128_1),
    unary main_v41 main_v42 (broadcastInDim S100000x128 ![0, 1] bcast_S1x128_S100000x128_0_1),
    binary main_v40 main_v42 main_v43 (addf),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf,
    binary main_v44 main_arg6 main_v45 (fun l r => Host.dotGeneral dot_S100000x128_S128x128_S100000x128_1_0_0_1_n_n none l r),
    nullary main_v46 (iotaInDim S100000 32 0) ]

abbrev ops04_W : List (Ref sig .tc) := [main_c_4, main_v28, main_v29, main_c_5, main_v30, main_v31, main_v32, main_v33, main_v34, main_v35, main_v36, main_v37, main_cst_6, main_v38, main_v39, main_v40, main_v41, main_v42, main_v43, main_call0_cst, main_call0_v0, main_v44, main_v45, main_v46]
theorem ops04_writes : (ops04 : List (HloOp τ sig (Elt F))).Forall fun op => op.writes ⊆ (ops04_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops04_sub : (ops04 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub ..⟩
theorem ops04_fresh : ∀ op ∈ (ops04 : List (HloOp τ sig (Elt F))), op.fresh = ∅ := by
  intro _ h; (repeat (cases h with | head => rfl | tail _ h => ?_)); exact nomatch h

abbrev ops05 : List (HloOp τ sig (Elt F)) :=
  [ binary main_v1 main_v46 main_v47 (fun a b => concatenate S1100000 0 [⟨S1000000, a⟩, ⟨S100000, b⟩] concatenates_S1000000_S100000_S1100000_d0) ]

abbrev ops05_W : List (Ref sig .tc) := [main_v47]
theorem ops05_writes : (ops05 : List (HloOp τ sig (Elt F))).Forall fun op => op.writes ⊆ (ops05_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops05_sub : (ops05 : List (HloOp τ sig (Elt F))).Forall fun op => op.bufs ⊆ tcRefs τ sig :=
  (binary_bufs_sub ..)
theorem ops05_fresh : ∀ op ∈ (ops05 : List (HloOp τ sig (Elt F))), op.fresh = ∅ := by
  intro _ h; (repeat (cases h with | head => rfl | tail _ h => ?_)); exact nomatch h

abbrev ops06 : List (HloOp τ sig (Elt F)) :=
  [ binary main_v3 main_v46 main_v48 (fun a b => concatenate S1100000 0 [⟨S1000000, a⟩, ⟨S100000, b⟩] concatenates_S1000000_S100000_S1100000_d0),
    nullary main_cst_7 (constant S_ .f32 0x3F800000#32),
    unary main_cst_7 main_v49 (broadcastInDim S1100000 ![] bcast_S_S1100000) ]

abbrev ops06_W : List (Ref sig .tc) := [main_v48, main_cst_7, main_v49]
theorem ops06_writes : (ops06 : List (HloOp τ sig (Elt F))).Forall fun op => op.writes ⊆ (ops06_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops06_sub : (ops06 : List (HloOp τ sig (Elt F))).Forall fun op => op.bufs ⊆ tcRefs τ sig :=
  ⟨binary_bufs_sub .., nullary_bufs_sub .., unary_bufs_sub ..⟩
theorem ops06_fresh : ∀ op ∈ (ops06 : List (HloOp τ sig (Elt F))), op.fresh = ∅ := by
  intro _ h; (repeat (cases h with | head => rfl | tail _ h => ?_)); exact nomatch h

abbrev ops07 : List (HloOp τ sig (Elt F)) :=
  [ nullary main_cst_8 (constant S_ .f32 0x00000000#32),
    unary main_cst_8 main_v50 (broadcastInDim S100000 ![] bcast_S_S100000),
    unary main_v48 main_v51 (broadcastInDim S1100000x1 ![0] bcast_S1100000_S1100000x1_0),
    ternary main_v50 main_v51 main_v49 main_v52 (fun x i u => Host.scatterAdd scatter_S100000_S1100000x1_S1100000_n_0_0_1 x i u),
    unary main_v52 main_v53 (Host.rsqrt),
    nullary main_c_9 (constantI S_ 32 0#32),
    unary main_c_9 main_v54 (broadcastInDim S1100000 ![] bcast_S_S1100000),
    binary main_v47 main_v54 main_v55 (cmpi .slt),
    nullary main_c_10 (constantI S_ 32 100000#32),
    unary main_c_10 main_v56 (broadcastInDim S1100000 ![] bcast_S_S1100000),
    binary main_v47 main_v56 main_v57 (addi),
    ternary main_v55 main_v57 main_v47 main_v58 (select),
    unary main_v58 main_v59 (broadcastInDim S1100000x1 ![0] bcast_S1100000_S1100000x1_0),
    binary main_v53 main_v59 main_v60 (fun x i => Host.gather gather_S100000_S1100000x1_S1100000_n_0_n_n_0_1_1 x i),
    nullary main_c_11 (constantI S_ 32 0#32),
    unary main_c_11 main_v61 (broadcastInDim S1100000 ![] bcast_S_S1100000),
    binary main_v48 main_v61 main_v62 (cmpi .slt),
    nullary main_c_12 (constantI S_ 32 100000#32),
    unary main_c_12 main_v63 (broadcastInDim S1100000 ![] bcast_S_S1100000),
    binary main_v48 main_v63 main_v64 (addi),
    ternary main_v62 main_v64 main_v48 main_v65 (select),
    unary main_v65 main_v66 (broadcastInDim S1100000x1 ![0] bcast_S1100000_S1100000x1_0),
    binary main_v53 main_v66 main_v67 (fun x i => Host.gather gather_S100000_S1100000x1_S1100000_n_0_n_n_0_1_1 x i),
    binary main_v60 main_v67 main_v68 (mulf) ]

abbrev ops07_W : List (Ref sig .tc) := [main_cst_8, main_v50, main_v51, main_v52, main_v53, main_c_9, main_v54, main_v55, main_c_10, main_v56, main_v57, main_v58, main_v59, main_v60, main_c_11, main_v61, main_v62, main_c_12, main_v63, main_v64, main_v65, main_v66, main_v67, main_v68]
theorem ops07_writes : (ops07 : List (HloOp τ sig (Elt F))).Forall fun op => op.writes ⊆ (ops07_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops07_sub : (ops07 : List (HloOp τ sig (Elt F))).Forall fun op => op.bufs ⊆ tcRefs τ sig :=
  ⟨nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops07_fresh : ∀ op ∈ (ops07 : List (HloOp τ sig (Elt F))), op.fresh = ∅ := by
  intro _ h; (repeat (cases h with | head => rfl | tail _ h => ?_)); exact nomatch h

abbrev ops08 : List (HloOp τ sig (Elt F)) :=
  [ nullary main_c_13 (constantI S_ 32 0#32),
    unary main_c_13 main_v69 (broadcastInDim S1100000 ![] bcast_S_S1100000),
    binary main_v47 main_v69 main_v70 (cmpi .slt),
    nullary main_c_14 (constantI S_ 32 100000#32),
    unary main_c_14 main_v71 (broadcastInDim S1100000 ![] bcast_S_S1100000),
    binary main_v47 main_v71 main_v72 (addi),
    ternary main_v70 main_v72 main_v47 main_v73 (select),
    unary main_v73 main_v74 (broadcastInDim S1100000x1 ![0] bcast_S1100000_S1100000x1_0),
    binary main_v45 main_v74 main_v75 (fun x i => Host.gather gather_S100000x128_S1100000x1_S1100000x128_1_0_n_n_0_1_1128 x i),
    unary main_v68 main_v76 (broadcastInDim S1100000x1 ![0] bcast_S1100000_S1100000x1_0),
    unary main_v76 main_v77 (broadcastInDim S1100000x128 ![0, 1] bcast_S1100000x1_S1100000x128_0_1),
    binary main_v75 main_v77 main_v78 (mulf),
    nullary main_cst_15 (constant S_ .f32 0x00000000#32),
    unary main_cst_15 main_v79 (broadcastInDim S100000x128 ![] bcast_S_S100000x128),
    unary main_v48 main_v80 (broadcastInDim S1100000x1 ![0] bcast_S1100000_S1100000x1_0),
    ternary main_v79 main_v80 main_v78 main_v81 (fun x i u => Host.scatterAdd scatter_S100000x128_S1100000x1_S1100000x128_1_0_0_1 x i u),
    unary main_arg7 main_v82 (broadcastInDim S1x128 ![1] bcast_S128_S1x128_1),
    unary main_v82 main_v83 (broadcastInDim S100000x128 ![0, 1] bcast_S1x128_S100000x128_0_1),
    binary main_v81 main_v83 main_v84 (addf),
    unary main_v84 main_v85 (extractStridedSlice S64x128 ![0, 0] · slices_S100000x128_S64x128_0_0) ]

abbrev ops08_W : List (Ref sig .tc) := [main_c_13, main_v69, main_v70, main_c_14, main_v71, main_v72, main_v73, main_v74, main_v75, main_v76, main_v77, main_v78, main_cst_15, main_v79, main_v80, main_v81, main_v82, main_v83, main_v84, main_v85]
theorem ops08_writes : (ops08 : List (HloOp τ sig (Elt F))).Forall fun op => op.writes ⊆ (ops08_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops08_sub : (ops08 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub ..⟩
theorem ops08_fresh : ∀ op ∈ (ops08 : List (HloOp τ sig (Elt F))), op.fresh = ∅ := by
  intro _ h; (repeat (cases h with | head => rfl | tail _ h => ?_)); exact nomatch h

abbrev ops09 : List (HloOp τ sig (Elt F)) :=
  [ nullary main_c_16 (constantI S_ 32 0#32),
    unary main_c_16 main_v86 (broadcastInDim S100000 ![] bcast_S_S100000),
    binary main_arg2 main_v86 main_v87 (cmpi .sgt),
    unary main_v87 main_v88 (uitofp .f32),
    unary main_v88 main_v89 (broadcastInDim S100000x1 ![0] bcast_S100000_S100000x1_0),
    unary main_v89 main_v90 (broadcastInDim S100000x128 ![0, 1] bcast_S100000x1_S100000x128_0_1),
    binary main_v84 main_v90 main_v91 (mulf),
    nullary main_cst_17 (constant S_ .f32 0x00000000#32),
    unary main_cst_17 main_v92 (broadcastInDim S64x128 ![] bcast_S_S64x128),
    unary main_arg2 main_v93 (broadcastInDim S100000x1 ![0] bcast_S100000_S100000x1_0),
    ternary main_v92 main_v93 main_v91 main_v94 (fun x i u => Host.scatterAdd scatter_S64x128_S100000x1_S100000x128_1_0_0_1 x i u),
    nullary main_cst_18 (constant S_ .f32 0x00000000#32),
    unary main_cst_18 main_v95 (broadcastInDim S64 ![] bcast_S_S64),
    unary main_arg2 main_v96 (broadcastInDim S100000x1 ![0] bcast_S100000_S100000x1_0),
    ternary main_v95 main_v96 main_v88 main_v97 (fun x i u => Host.scatterAdd scatter_S64_S100000x1_S100000_n_0_0_1 x i u),
    nullary main_cst_19 (constant S_ .f32 0x3F800000#32) ]

abbrev ops09_W : List (Ref sig .tc) := [main_c_16, main_v86, main_v87, main_v88, main_v89, main_v90, main_v91, main_cst_17, main_v92, main_v93, main_v94, main_cst_18, main_v95, main_v96, main_v97, main_cst_19]
theorem ops09_writes : (ops09 : List (HloOp τ sig (Elt F))).Forall fun op => op.writes ⊆ (ops09_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops09_sub : (ops09 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub ..⟩
theorem ops09_fresh : ∀ op ∈ (ops09 : List (HloOp τ sig (Elt F))), op.fresh = ∅ := by
  intro _ h; (repeat (cases h with | head => rfl | tail _ h => ?_)); exact nomatch h

abbrev ops10 : List (HloOp τ sig (Elt F)) :=
  [ unary main_cst_19 main_v98 (broadcastInDim S64 ![] bcast_S_S64),
    binary main_v97 main_v98 main_v99 (maximumf),
    unary main_v99 main_v100 (broadcastInDim S64x1 ![0] bcast_S64_S64x1_0),
    unary main_v100 main_v101 (broadcastInDim S64x128 ![0, 1] bcast_S64x1_S64x128_0_1),
    binary main_v94 main_v101 main_v102 (Host.divf) ]

abbrev ops10_W : List (Ref sig .tc) := [main_v98, main_v99, main_v100, main_v101, main_v102]
theorem ops10_writes : (ops10 : List (HloOp τ sig (Elt F))).Forall fun op => op.writes ⊆ (ops10_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops10_sub : (ops10 : List (HloOp τ sig (Elt F))).Forall fun op => op.bufs ⊆ tcRefs τ sig :=
  ⟨unary_bufs_sub .., binary_bufs_sub .., unary_bufs_sub .., unary_bufs_sub .., binary_bufs_sub ..⟩
theorem ops10_fresh : ∀ op ∈ (ops10 : List (HloOp τ sig (Elt F))), op.fresh = ∅ := by
  intro _ h; (repeat (cases h with | head => rfl | tail _ h => ?_)); exact nomatch h

abbrev ops11 : List (HloOp τ sig (Elt F)) :=
  [ binary main_v85 main_v102 main_v103 (fun a b => concatenate S64x256 1 [⟨S64x128, a⟩, ⟨S64x128, b⟩] concatenates_S64x128_S64x128_S64x256_d1),
    unary main_arg3 main_v104 (sitofp .f32) ]

abbrev ops11_W : List (Ref sig .tc) := [main_v103, main_v104]
theorem ops11_writes : (ops11 : List (HloOp τ sig (Elt F))).Forall fun op => op.writes ⊆ (ops11_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops11_sub : (ops11 : List (HloOp τ sig (Elt F))).Forall fun op => op.bufs ⊆ tcRefs τ sig :=
  ⟨binary_bufs_sub .., unary_bufs_sub ..⟩
theorem ops11_fresh : ∀ op ∈ (ops11 : List (HloOp τ sig (Elt F))), op.fresh = ∅ := by
  intro _ h; (repeat (cases h with | head => rfl | tail _ h => ?_)); exact nomatch h

abbrev ops12 : List (HloOp τ sig (Elt F)) :=
  [ binary main_v103 main_v104 main_v105 (fun a b => concatenate S64x356 1 [⟨S64x256, a⟩, ⟨S64x100, b⟩] concatenates_S64x256_S64x100_S64x356_d1),
    binary main_v105 main_arg8 main_v106 (fun l r => Host.dotGeneral dot_S64x356_S356x128_S64x128_1_0_0_1_n_n none l r),
    unary main_arg9 main_v107 (broadcastInDim S1x128 ![1] bcast_S128_S1x128_1),
    unary main_v107 main_v108 (broadcastInDim S64x128 ![0, 1] bcast_S1x128_S64x128_0_1),
    binary main_v106 main_v108 main_v109 (addf),
    TRef.nullary (TRef.of (T := ⟨S_, .f32⟩) main_call1_cst) (constant S_ .f32 0x00000000#32),
    TRef.unary (TRef.of (T := ⟨S_, .f32⟩) main_call1_cst) (TRef.of (T := ⟨S64x128, .f32⟩) main_call1_v0) (broadcastInDim S64x128 ![] bcast_S_S64x128),
    TRef.binary (TRef.of (T := ⟨S64x128, .f32⟩) main_v109) (TRef.of (T := ⟨S64x128, .f32⟩) main_call1_v0) (TRef.of (T := ⟨S64x128, .f32⟩) main_v110) maximumf,
    binary main_v110 main_arg10 main_v111 (fun l r => Host.dotGeneral dot_S64x128_S128x128_S64x128_1_0_0_1_n_n none l r),
    unary main_arg11 main_v112 (broadcastInDim S1x128 ![1] bcast_S128_S1x128_1),
    unary main_v112 main_v113 (broadcastInDim S64x128 ![0, 1] bcast_S1x128_S64x128_0_1),
    binary main_v111 main_v113 main_v114 (addf),
    TRef.nullary (TRef.of (T := ⟨S_, .f32⟩) main_call2_cst) (constant S_ .f32 0x00000000#32),
    TRef.unary (TRef.of (T := ⟨S_, .f32⟩) main_call2_cst) (TRef.of (T := ⟨S64x128, .f32⟩) main_call2_v0) (broadcastInDim S64x128 ![] bcast_S_S64x128),
    TRef.binary (TRef.of (T := ⟨S64x128, .f32⟩) main_v114) (TRef.of (T := ⟨S64x128, .f32⟩) main_call2_v0) (TRef.of (T := ⟨S64x128, .f32⟩) main_v115) maximumf,
    binary main_v115 main_arg12 main_v116 (fun l r => Host.dotGeneral dot_S64x128_S128x200_S64x200_1_0_0_1_n_n none l r),
    unary main_arg13 main_v117 (broadcastInDim S1x200 ![1] bcast_S200_S1x200_1),
    unary main_v117 main_v118 (broadcastInDim S64x200 ![0, 1] bcast_S1x200_S64x200_0_1),
    binary main_v116 main_v118 main_v119 (addf),
    reshape main_v119 main_v120 rfl shapeCasts_S64x200_S64x100x2,
    binary main_v115 main_arg14 main_v121 (fun l r => Host.dotGeneral dot_S64x128_S128x4000_S64x4000_1_0_0_1_n_n none l r),
    unary main_arg15 main_v122 (broadcastInDim S1x4000 ![1] bcast_S4000_S1x4000_1),
    unary main_v122 main_v123 (broadcastInDim S64x4000 ![0, 1] bcast_S1x4000_S64x4000_0_1),
    binary main_v121 main_v123 main_v124 (addf),
    reshape main_v124 main_v125 rfl shapeCasts_S64x4000_S64x20x100x2 ]

abbrev ops12_W : List (Ref sig .tc) := [main_v105, main_v106, main_v107, main_v108, main_v109, main_call1_cst, main_call1_v0, main_v110, main_v111, main_v112, main_v113, main_v114, main_call2_cst, main_call2_v0, main_v115, main_v116, main_v117, main_v118, main_v119, main_v120, main_v121, main_v122, main_v123, main_v124, main_v125]
theorem ops12_writes : (ops12 : List (HloOp τ sig (Elt F))).Forall fun op => op.writes ⊆ (ops12_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops12_sub : (ops12 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., binary_bufs_sub .., unary_bufs_sub .., unary_bufs_sub .., binary_bufs_sub .., reshape_bufs_sub ..⟩
theorem ops12_fresh : ∀ op ∈ (ops12 : List (HloOp τ sig (Elt F))), op.fresh = ∅ := by
  intro _ h; (repeat (cases h with | head => rfl | tail _ h => ?_)); exact nomatch h

abbrev ops13 : List (HloOp τ sig (Elt F)) :=
  [ nullary main_cst_20 (constant S_ .f32 0xFF800000#32),
    binary main_v120 main_cst_20 main_v126 (fun x v => Host.reduce FloatOps.maximumf x v reducesTo_S64x100x2_S64x100_d2 h_S_),
    nullary main_cst_21 (constant S_ .f32 0xFF800000#32),
    unary main_cst_21 main_v127 (broadcastInDim S64x100 ![] bcast_S_S64x100),
    binary main_v127 main_v126 main_v128 (maximumf),
    unary main_v128 main_v129 (broadcastInDim S64x100x1 ![0, 1] bcast_S64x100_S64x100x1_0_1),
    unary main_v129 main_v130 (broadcastInDim S64x100x2 ![0, 1, 2] bcast_S64x100x1_S64x100x2_0_1_2),
    binary main_v120 main_v130 main_v131 (subf),
    unary main_v131 main_v132 (Host.exp),
    nullary main_cst_22 (constant S_ .f32 0x00000000#32),
    binary main_v132 main_cst_22 main_v133 (fun x v => Host.reduceAdd x v reducesTo_S64x100x2_S64x100_d2 h_S_),
    unary main_v133 main_v134 (broadcastInDim S64x100x1 ![0, 1] bcast_S64x100_S64x100x1_0_1),
    unary main_v134 main_v135 (broadcastInDim S64x100x2 ![0, 1, 2] bcast_S64x100x1_S64x100x2_0_1_2),
    binary main_v132 main_v135 main_v136 (Host.divf) ]

abbrev ops13_W : List (Ref sig .tc) := [main_cst_20, main_v126, main_cst_21, main_v127, main_v128, main_v129, main_v130, main_v131, main_v132, main_cst_22, main_v133, main_v134, main_v135, main_v136]
theorem ops13_writes : (ops13 : List (HloOp τ sig (Elt F))).Forall fun op => op.writes ⊆ (ops13_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops13_sub : (ops13 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ops13_fresh : ∀ op ∈ (ops13 : List (HloOp τ sig (Elt F))), op.fresh = ∅ := by
  intro _ h; (repeat (cases h with | head => rfl | tail _ h => ?_)); exact nomatch h

abbrev ops14 : List (HloOp τ sig (Elt F)) :=
  [ nullary main_cst_23 (constant S_ .f32 0xFF800000#32),
    binary main_v125 main_cst_23 main_v137 (fun x v => Host.reduce FloatOps.maximumf x v reducesTo_S64x20x100x2_S64x20x100_d3 h_S_),
    nullary main_cst_24 (constant S_ .f32 0xFF800000#32),
    unary main_cst_24 main_v138 (broadcastInDim S64x20x100 ![] bcast_S_S64x20x100),
    binary main_v138 main_v137 main_v139 (maximumf),
    unary main_v139 main_v140 (broadcastInDim S64x20x100x1 ![0, 1, 2] bcast_S64x20x100_S64x20x100x1_0_1_2),
    unary main_v140 main_v141 (broadcastInDim S64x20x100x2 ![0, 1, 2, 3] bcast_S64x20x100x1_S64x20x100x2_0_1_2_3),
    binary main_v125 main_v141 main_v142 (subf),
    unary main_v142 main_v143 (Host.exp),
    nullary main_cst_25 (constant S_ .f32 0x00000000#32),
    binary main_v143 main_cst_25 main_v144 (fun x v => Host.reduceAdd x v reducesTo_S64x20x100x2_S64x20x100_d3 h_S_),
    unary main_v144 main_v145 (broadcastInDim S64x20x100x1 ![0, 1, 2] bcast_S64x20x100_S64x20x100x1_0_1_2),
    unary main_v145 main_v146 (broadcastInDim S64x20x100x2 ![0, 1, 2, 3] bcast_S64x20x100x1_S64x20x100x2_0_1_2_3),
    binary main_v143 main_v146 main_v147 (Host.divf) ]

abbrev ops14_W : List (Ref sig .tc) := [main_cst_23, main_v137, main_cst_24, main_v138, main_v139, main_v140, main_v141, main_v142, main_v143, main_cst_25, main_v144, main_v145, main_v146, main_v147]
theorem ops14_writes : (ops14 : List (HloOp τ sig (Elt F))).Forall fun op => op.writes ⊆ (ops14_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem ops14_sub : (ops14 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ops14_fresh : ∀ op ∈ (ops14 : List (HloOp τ sig (Elt F))), op.fresh = ∅ := by
  intro _ h; (repeat (cases h with | head => rfl | tail _ h => ?_)); exact nomatch h
end Cert.ReferenceIdeal.RunH

end
-- ==== Proof.RefRead.lean ====
import proofs.«428478_j66365834658323_2_alg».proof.Proof.Gen.ReferenceIdeal
import Idealize.ShloMosaic.Lib.StableHlo.Run

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S100000x128, .f32⟩ : BufTy).Contents (Elt F)) (x1 : (⟨S2x1000000, .i32⟩ : BufTy).Contents (Elt F)) (x2 : (⟨S100000, .i32⟩ : BufTy).Contents (Elt F)) (x3 : (⟨S64x100, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S356x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x200, .f32⟩ : BufTy).Contents (Elt F)) (x13 : (⟨S200, .f32⟩ : BufTy).Contents (Elt F)) (x14 : (⟨S128x4000, .f32⟩ : BufTy).Contents (Elt F)) (x15 : (⟨S4000, .f32⟩ : BufTy).Contents (Elt F))

def val_main_v0 : (⟨S1x1000000, .i32⟩ : BufTy).Contents (Elt F) :=
  extractStridedSlice S1x1000000 ![0, 0] (x1) slices_S2x1000000_S1x1000000_0_0

def val_main_v1 : (⟨S1000000, .i32⟩ : BufTy).Contents (Elt F) :=
  shapeCast _ (val_main_v0 (F := F) x1) shapeCasts_S1x1000000_S1000000

def val_main_v2 : (⟨S1x1000000, .i32⟩ : BufTy).Contents (Elt F) :=
  extractStridedSlice S1x1000000 ![1, 0] (x1) slices_S2x1000000_S1x1000000_1_0

def val_main_v3 : (⟨S1000000, .i32⟩ : BufTy).Contents (Elt F) :=
  shapeCast _ (val_main_v2 (F := F) x1) shapeCasts_S1x1000000_S1000000

def val_main_v4 : (⟨S100000x128, .f32⟩ : BufTy).Contents (Elt F) :=
  Host.dotGeneral dot_S100000x128_S128x128_S100000x128_1_0_0_1_n_n none (x0) (x4)

def val_main_v5 : (⟨S100000, .i32⟩ : BufTy).Contents (Elt F) :=
  iotaInDim S100000 32 0

def val_main_v6 : (⟨S1100000, .i32⟩ : BufTy).Contents (Elt F) :=
  concatenate S1100000 0 [⟨S1000000, (val_main_v1 (F := F) x1)⟩, ⟨S100000, (val_main_v5 (F := F))⟩] concatenates_S1000000_S100000_S1100000_d0

def val_main_v7 : (⟨S1100000, .i32⟩ : BufTy).Contents (Elt F) :=
  concatenate S1100000 0 [⟨S1000000, (val_main_v3 (F := F) x1)⟩, ⟨S100000, (val_main_v5 (F := F))⟩] concatenates_S1000000_S100000_S1100000_d0

def val_main_cst : (⟨S_, .f32⟩ : BufTy).Contents (Elt F) :=
  constant S_ .f32 0x3F800000#32

def val_main_v8 : (⟨S1100000, .f32⟩ : BufTy).Contents (Elt F) :=
  broadcastInDim S1100000 ![] bcast_S_S1100000 (val_main_cst (F := F))

def val_main_cst_0 : (⟨S_, .f32⟩ : BufTy).Contents (Elt F) :=
  constant S_ .f32 0x00000000#32

def val_main_v9 : (⟨S100000, .f32⟩ : BufTy).Contents (Elt F) :=
  broadcastInDim S100000 ![] bcast_S_S100000 (val_main_cst_0 (F := F))

def val_main_v10 : (⟨S1100000x1, .i32⟩ : BufTy).Contents (Elt F) :=
  broadcastInDim S1100000x1 ![0] bcast_S1100000_S1100000x1_0 (val_main_v7 (F := F) x1)

def val_main_v11 : (⟨S100000, .f32⟩ : BufTy).Contents (Elt F) :=
  Host.scatterAdd scatter_S100000_S1100000x1_S1100000_n_0_0_1 (val_main_v9 (F := F)) (val_main_v10 (F := F) x1) (val_main_v8 (F := F))

def val_main_v12 : (⟨S100000, .f32⟩ : BufTy).Contents (Elt F) :=
  Host.rsqrt (val_main_v11 (F := F) x1)

def val_main_c : (⟨S_, .i32⟩ : BufTy).Contents (Elt F) :=
  constantI S_ 32 0#32

def val_main_v13 : (⟨S1100000, .i32⟩ : BufTy).Contents (Elt F) :=
  broadcastInDim S1100000 ![] bcast_S_S1100000 (val_main_c (F := F))

def val_main_v14 : (⟨S1100000, .i1⟩ : BufTy).Contents (Elt F) :=
  cmpi .slt (val_main_v6 (F := F) x1) (val_main_v13 (F := F))

def val_main_c_1 : (⟨S_, .i32⟩ : BufTy).Contents (Elt F) :=
  constantI S_ 32 100000#32

def val_main_v15 : (⟨S1100000, .i32⟩ : BufTy).Contents (Elt F) :=
  broadcastInDim S1100000 ![] bcast_S_S1100000 (val_main_c_1 (F := F))

def val_main_v16 : (⟨S1100000, .i32⟩ : BufTy).Contents (Elt F) :=
  addi (val_main_v6 (F := F) x1) (val_main_v15 (F := F))

def val_main_v17 : (⟨S1100000, .i32⟩ : BufTy).Contents (Elt F) :=
  select (val_main_v14 (F := F) x1) (val_main_v16 (F := F) x1) (val_main_v6 (F := F) x1)

def val_main_v18 : (⟨S1100000x1, .i32⟩ : BufTy).Contents (Elt F) :=
  broadcastInDim S1100000x1 ![0] bcast_S1100000_S1100000x1_0 (val_main_v17 (F := F) x1)

def val_main_v19 : (⟨S1100000, .f32⟩ : BufTy).Contents (Elt F) :=
  Host.gather gather_S100000_S1100000x1_S1100000_n_0_n_n_0_1_1 (val_main_v12 (F := F) x1) (val_main_v18 (F := F) x1)

def val_main_c_2 : (⟨S_, .i32⟩ : BufTy).Contents (Elt F) :=
  constantI S_ 32 0#32

def val_main_v20 : (⟨S1100000, .i32⟩ : BufTy).Contents (Elt F) :=
  broadcastInDim S1100000 ![] bcast_S_S1100000 (val_main_c_2 (F := F))

def val_main_v21 : (⟨S1100000, .i1⟩ : BufTy).Contents (Elt F) :=
  cmpi .slt (val_main_v7 (F := F) x1) (val_main_v20 (F := F))

def val_main_c_3 : (⟨S_, .i32⟩ : BufTy).Contents (Elt F) :=
  constantI S_ 32 100000#32

def val_main_v22 : (⟨S1100000, .i32⟩ : BufTy).Contents (Elt F) :=
  broadcastInDim S1100000 ![] bcast_S_S1100000 (val_main_c_3 (F := F))

def val_main_v23 : (⟨S1100000, .i32⟩ : BufTy).Contents (Elt F) :=
  addi (val_main_v7 (F := F) x1) (val_main_v22 (F := F))

def val_main_v24 : (⟨S1100000, .i32⟩ : BufTy).Contents (Elt F) :=
  select (val_main_v21 (F := F) x1) (val_main_v23 (F := F) x1) (val_main_v7 (F := F) x1)

def val_main_v25 : (⟨S1100000x1, .i32⟩ : BufTy).Contents (Elt F) :=
  broadcastInDim S1100000x1 ![0] bcast_S1100000_S1100000x1_0 (val_main_v24 (F := F) x1)

def val_main_v26 : (⟨S1100000, .f32⟩ : BufTy).Contents (Elt F) :=
  Host.gather gather_S100000_S1100000x1_S1100000_n_0_n_n_0_1_1 (val_main_v12 (F := F) x1) (val_main_v25 (F := F) x1)

def val_main_v27 : (⟨S1100000, .f32⟩ : BufTy).Contents (Elt F) :=
  mulf (val_main_v19 (F := F) x1) (val_main_v26 (F := F) x1)

def val_main_c_4 : (⟨S_, .i32⟩ : BufTy).Contents (Elt F) :=
  constantI S_ 32 0#32

def val_main_v28 : (⟨S1100000, .i32⟩ : BufTy).Contents (Elt F) :=
  broadcastInDim S1100000 ![] bcast_S_S1100000 (val_main_c_4 (F := F))

def val_main_v29 : (⟨S1100000, .i1⟩ : BufTy).Contents (Elt F) :=
  cmpi .slt (val_main_v6 (F := F) x1) (val_main_v28 (F := F))

def val_main_c_5 : (⟨S_, .i32⟩ : BufTy).Contents (Elt F) :=
  constantI S_ 32 100000#32

def val_main_v30 : (⟨S1100000, .i32⟩ : BufTy).Contents (Elt F) :=
  broadcastInDim S1100000 ![] bcast_S_S1100000 (val_main_c_5 (F := F))

def val_main_v31 : (⟨S1100000, .i32⟩ : BufTy).Contents (Elt F) :=
  addi (val_main_v6 (F := F) x1) (val_main_v30 (F := F))

def val_main_v32 : (⟨S1100000, .i32⟩ : BufTy).Contents (Elt F) :=
  select (val_main_v29 (F := F) x1) (val_main_v31 (F := F) x1) (val_main_v6 (F := F) x1)

def val_main_v33 : (⟨S1100000x1, .i32⟩ : BufTy).Contents (Elt F) :=
  broadcastInDim S1100000x1 ![0] bcast_S1100000_S1100000x1_0 (val_main_v32 (F := F) x1)

def val_main_v34 : (⟨S1100000x128, .f32⟩ : BufTy).Contents (Elt F) :=
  Host.gather gather_S100000x128_S1100000x1_S1100000x128_1_0_n_n_0_1_1128 (val_main_v4 (F := F) x0 x4) (val_main_v33 (F := F) x1)

def val_main_v35 : (⟨S1100000x1, .f32⟩ : BufTy).Contents (Elt F) :=
  broadcastInDim S1100000x1 ![0] bcast_S1100000_S1100000x1_0 (val_main_v27 (F := F) x1)

def val_main_v36 : (⟨S1100000x128, .f32⟩ : BufTy).Contents (Elt F) :=
  broadcastInDim S1100000x128 ![0, 1] bcast_S1100000x1_S1100000x128_0_1 (val_main_v35 (F := F) x1)

def val_main_v37 : (⟨S1100000x128, .f32⟩ : BufTy).Contents (Elt F) :=
  mulf (val_main_v34 (F := F) x0 x1 x4) (val_main_v36 (F := F) x1)

def val_main_cst_6 : (⟨S_, .f32⟩ : BufTy).Contents (Elt F) :=
  constant S_ .f32 0x00000000#32

def val_main_v38 : (⟨S100000x128, .f32⟩ : BufTy).Contents (Elt F) :=
  broadcastInDim S100000x128 ![] bcast_S_S100000x128 (val_main_cst_6 (F := F))

def val_main_v39 : (⟨S1100000x1, .i32⟩ : BufTy).Contents (Elt F) :=
  broadcastInDim S1100000x1 ![0] bcast_S1100000_S1100000x1_0 (val_main_v7 (F := F) x1)

def val_main_v40 : (⟨S100000x128, .f32⟩ : BufTy).Contents (Elt F) :=
  Host.scatterAdd scatter_S100000x128_S1100000x1_S1100000x128_1_0_0_1 (val_main_v38 (F := F)) (val_main_v39 (F := F) x1) (val_main_v37 (F := F) x0 x1 x4)

def val_main_v41 : (⟨S1x128, .f32⟩ : BufTy).Contents (Elt F) :=
  broadcastInDim S1x128 ![1] bcast_S128_S1x128_1 (x5)

def val_main_v42 : (⟨S100000x128, .f32⟩ : BufTy).Contents (Elt F) :=
  broadcastInDim S100000x128 ![0, 1] bcast_S1x128_S100000x128_0_1 (val_main_v41 (F := F) x5)

def val_main_v43 : (⟨S100000x128, .f32⟩ : BufTy).Contents (Elt F) :=
  addf (val_main_v40 (F := F) x0 x1 x4) (val_main_v42 (F := F) x5)

def val_main_call0_cst : (⟨S_, .f32⟩ : BufTy).Contents (Elt F) :=
  constant S_ .f32 0x00000000#32

def val_main_call0_v0 : (⟨S100000x128, .f32⟩ : BufTy).Contents (Elt F) :=
  broadcastInDim S100000x128 ![] bcast_S_S100000x128 (val_main_call0_cst (F := F))

def val_main_v44 : (⟨S100000x128, .f32⟩ : BufTy).Contents (Elt F) :=
  maximumf (val_main_v43 (F := F) x0 x1 x4 x5) (val_main_call0_v0 (F := F))

def val_main_v45 : (⟨S100000x128, .f32⟩ : BufTy).Contents (Elt F) :=
  Host.dotGeneral dot_S100000x128_S128x128_S100000x128_1_0_0_1_n_n none (val_main_v44 (F := F) x0 x1 x4 x5) (x6)

def val_main_v46 : (⟨S100000, .i32⟩ : BufTy).Contents (Elt F) :=
  iotaInDim S100000 32 0

def val_main_v47 : (⟨S1100000, .i32⟩ : BufTy).Contents (Elt F) :=
  concatenate S1100000 0 [⟨S1000000, (val_main_v1 (F := F) x1)⟩, ⟨S100000, (val_main_v46 (F := F))⟩] concatenates_S1000000_S100000_S1100000_d0

def val_main_v48 : (⟨S1100000, .i32⟩ : BufTy).Contents (Elt F) :=
  concatenate S1100000 0 [⟨S1000000, (val_main_v3 (F := F) x1)⟩, ⟨S100000, (val_main_v46 (F := F))⟩] concatenates_S1000000_S100000_S1100000_d0

def val_main_cst_7 : (⟨S_, .f32⟩ : BufTy).Contents (Elt F) :=
  constant S_ .f32 0x3F800000#32

def val_main_v49 : (⟨S1100000, .f32⟩ : BufTy).Contents (Elt F) :=
  broadcastInDim S1100000 ![] bcast_S_S1100000 (val_main_cst_7 (F := F))

def val_main_cst_8 : (⟨S_, .f32⟩ : BufTy).Contents (Elt F) :=
  constant S_ .f32 0x00000000#32

def val_main_v50 : (⟨S100000, .f32⟩ : BufTy).Contents (Elt F) :=
  broadcastInDim S100000 ![] bcast_S_S100000 (val_main_cst_8 (F := F))

def val_main_v51 : (⟨S1100000x1, .i32⟩ : BufTy).Contents (Elt F) :=
  broadcastInDim S1100000x1 ![0] bcast_S1100000_S1100000x1_0 (val_main_v48 (F := F) x1)

def val_main_v52 : (⟨S100000, .f32⟩ : BufTy).Contents (Elt F) :=
  Host.scatterAdd scatter_S100000_S1100000x1_S1100000_n_0_0_1 (val_main_v50 (F := F)) (val_main_v51 (F := F) x1) (val_main_v49 (F := F))

def val_main_v53 : (⟨S100000, .f32⟩ : BufTy).Contents (Elt F) :=
  Host.rsqrt (val_main_v52 (F := F) x1)

def val_main_c_9 : (⟨S_, .i32⟩ : BufTy).Contents (Elt F) :=
  constantI S_ 32 0#32

def val_main_v54 : (⟨S1100000, .i32⟩ : BufTy).Contents (Elt F) :=
  broadcastInDim S1100000 ![] bcast_S_S1100000 (val_main_c_9 (F := F))

def val_main_v55 : (⟨S1100000, .i1⟩ : BufTy).Contents (Elt F) :=
  cmpi .slt (val_main_v47 (F := F) x1) (val_main_v54 (F := F))

def val_main_c_10 : (⟨S_, .i32⟩ : BufTy).Contents (Elt F) :=
  constantI S_ 32 100000#32

def val_main_v56 : (⟨S1100000, .i32⟩ : BufTy).Contents (Elt F) :=
  broadcastInDim S1100000 ![] bcast_S_S1100000 (val_main_c_10 (F := F))

def val_main_v57 : (⟨S1100000, .i32⟩ : BufTy).Contents (Elt F) :=
  addi (val_main_v47 (F := F) x1) (val_main_v56 (F := F))

def val_main_v58 : (⟨S1100000, .i32⟩ : BufTy).Contents (Elt F) :=
  select (val_main_v55 (F := F) x1) (val_main_v57 (F := F) x1) (val_main_v47 (F := F) x1)

def val_main_v59 : (⟨S1100000x1, .i32⟩ : BufTy).Contents (Elt F) :=
  broadcastInDim S1100000x1 ![0] bcast_S1100000_S1100000x1_0 (val_main_v58 (F := F) x1)

def val_main_v60 : (⟨S1100000, .f32⟩ : BufTy).Contents (Elt F) :=
  Host.gather gather_S100000_S1100000x1_S1100000_n_0_n_n_0_1_1 (val_main_v53 (F := F) x1) (val_main_v59 (F := F) x1)

def val_main_c_11 : (⟨S_, .i32⟩ : BufTy).Contents (Elt F) :=
  constantI S_ 32 0#32

def val_main_v61 : (⟨S1100000, .i32⟩ : BufTy).Contents (Elt F) :=
  broadcastInDim S1100000 ![] bcast_S_S1100000 (val_main_c_11 (F := F))

def val_main_v62 : (⟨S1100000, .i1⟩ : BufTy).Contents (Elt F) :=
  cmpi .slt (val_main_v48 (F := F) x1) (val_main_v61 (F := F))

def val_main_c_12 : (⟨S_, .i32⟩ : BufTy).Contents (Elt F) :=
  constantI S_ 32 100000#32

def val_main_v63 : (⟨S1100000, .i32⟩ : BufTy).Contents (Elt F) :=
  broadcastInDim S1100000 ![] bcast_S_S1100000 (val_main_c_12 (F := F))

def val_main_v64 : (⟨S1100000, .i32⟩ : BufTy).Contents (Elt F) :=
  addi (val_main_v48 (F := F) x1) (val_main_v63 (F := F))

def val_main_v65 : (⟨S1100000, .i32⟩ : BufTy).Contents (Elt F) :=
  select (val_main_v62 (F := F) x1) (val_main_v64 (F := F) x1) (val_main_v48 (F := F) x1)

def val_main_v66 : (⟨S1100000x1, .i32⟩ : BufTy).Contents (Elt F) :=
  broadcastInDim S1100000x1 ![0] bcast_S1100000_S1100000x1_0 (val_main_v65 (F := F) x1)

def val_main_v67 : (⟨S1100000, .f32⟩ : BufTy).Contents (Elt F) :=
  Host.gather gather_S100000_S1100000x1_S1100000_n_0_n_n_0_1_1 (val_main_v53 (F := F) x1) (val_main_v66 (F := F) x1)

def val_main_v68 : (⟨S1100000, .f32⟩ : BufTy).Contents (Elt F) :=
  mulf (val_main_v60 (F := F) x1) (val_main_v67 (F := F) x1)

def val_main_c_13 : (⟨S_, .i32⟩ : BufTy).Contents (Elt F) :=
  constantI S_ 32 0#32

def val_main_v69 : (⟨S1100000, .i32⟩ : BufTy).Contents (Elt F) :=
  broadcastInDim S1100000 ![] bcast_S_S1100000 (val_main_c_13 (F := F))

def val_main_v70 : (⟨S1100000, .i1⟩ : BufTy).Contents (Elt F) :=
  cmpi .slt (val_main_v47 (F := F) x1) (val_main_v69 (F := F))

def val_main_c_14 : (⟨S_, .i32⟩ : BufTy).Contents (Elt F) :=
  constantI S_ 32 100000#32

def val_main_v71 : (⟨S1100000, .i32⟩ : BufTy).Contents (Elt F) :=
  broadcastInDim S1100000 ![] bcast_S_S1100000 (val_main_c_14 (F := F))

def val_main_v72 : (⟨S1100000, .i32⟩ : BufTy).Contents (Elt F) :=
  addi (val_main_v47 (F := F) x1) (val_main_v71 (F := F))

def val_main_v73 : (⟨S1100000, .i32⟩ : BufTy).Contents (Elt F) :=
  select (val_main_v70 (F := F) x1) (val_main_v72 (F := F) x1) (val_main_v47 (F := F) x1)

def val_main_v74 : (⟨S1100000x1, .i32⟩ : BufTy).Contents (Elt F) :=
  broadcastInDim S1100000x1 ![0] bcast_S1100000_S1100000x1_0 (val_main_v73 (F := F) x1)

def val_main_v75 : (⟨S1100000x128, .f32⟩ : BufTy).Contents (Elt F) :=
  Host.gather gather_S100000x128_S1100000x1_S1100000x128_1_0_n_n_0_1_1128 (val_main_v45 (F := F) x0 x1 x4 x5 x6) (val_main_v74 (F := F) x1)

def val_main_v76 : (⟨S1100000x1, .f32⟩ : BufTy).Contents (Elt F) :=
  broadcastInDim S1100000x1 ![0] bcast_S1100000_S1100000x1_0 (val_main_v68 (F := F) x1)

def val_main_v77 : (⟨S1100000x128, .f32⟩ : BufTy).Contents (Elt F) :=
  broadcastInDim S1100000x128 ![0, 1] bcast_S1100000x1_S1100000x128_0_1 (val_main_v76 (F := F) x1)

def val_main_v78 : (⟨S1100000x128, .f32⟩ : BufTy).Contents (Elt F) :=
  mulf (val_main_v75 (F := F) x0 x1 x4 x5 x6) (val_main_v77 (F := F) x1)

def val_main_cst_15 : (⟨S_, .f32⟩ : BufTy).Contents (Elt F) :=
  constant S_ .f32 0x00000000#32

def val_main_v79 : (⟨S100000x128, .f32⟩ : BufTy).Contents (Elt F) :=
  broadcastInDim S100000x128 ![] bcast_S_S100000x128 (val_main_cst_15 (F := F))

def val_main_v80 : (⟨S1100000x1, .i32⟩ : BufTy).Contents (Elt F) :=
  broadcastInDim S1100000x1 ![0] bcast_S1100000_S1100000x1_0 (val_main_v48 (F := F) x1)

def val_main_v81 : (⟨S100000x128, .f32⟩ : BufTy).Contents (Elt F) :=
  Host.scatterAdd scatter_S100000x128_S1100000x1_S1100000x128_1_0_0_1 (val_main_v79 (F := F)) (val_main_v80 (F := F) x1) (val_main_v78 (F := F) x0 x1 x4 x5 x6)

def val_main_v82 : (⟨S1x128, .f32⟩ : BufTy).Contents (Elt F) :=
  broadcastInDim S1x128 ![1] bcast_S128_S1x128_1 (x7)

def val_main_v83 : (⟨S100000x128, .f32⟩ : BufTy).Contents (Elt F) :=
  broadcastInDim S100000x128 ![0, 1] bcast_S1x128_S100000x128_0_1 (val_main_v82 (F := F) x7)

def val_main_v84 : (⟨S100000x128, .f32⟩ : BufTy).Contents (Elt F) :=
  addf (val_main_v81 (F := F) x0 x1 x4 x5 x6) (val_main_v83 (F := F) x7)

def val_main_v85 : (⟨S64x128, .f32⟩ : BufTy).Contents (Elt F) :=
  extractStridedSlice S64x128 ![0, 0] (val_main_v84 (F := F) x0 x1 x4 x5 x6 x7) slices_S100000x128_S64x128_0_0

def val_main_c_16 : (⟨S_, .i32⟩ : BufTy).Contents (Elt F) :=
  constantI S_ 32 0#32

def val_main_v86 : (⟨S100000, .i32⟩ : BufTy).Contents (Elt F) :=
  broadcastInDim S100000 ![] bcast_S_S100000 (val_main_c_16 (F := F))

def val_main_v87 : (⟨S100000, .i1⟩ : BufTy).Contents (Elt F) :=
  cmpi .sgt (x2) (val_main_v86 (F := F))

def val_main_v88 : (⟨S100000, .f32⟩ : BufTy).Contents (Elt F) :=
  uitofp .f32 (val_main_v87 (F := F) x2)

def val_main_v89 : (⟨S100000x1, .f32⟩ : BufTy).Contents (Elt F) :=
  broadcastInDim S100000x1 ![0] bcast_S100000_S100000x1_0 (val_main_v88 (F := F) x2)

def val_main_v90 : (⟨S100000x128, .f32⟩ : BufTy).Contents (Elt F) :=
  broadcastInDim S100000x128 ![0, 1] bcast_S100000x1_S100000x128_0_1 (val_main_v89 (F := F) x2)

def val_main_v91 : (⟨S100000x128, .f32⟩ : BufTy).Contents (Elt F) :=
  mulf (val_main_v84 (F := F) x0 x1 x4 x5 x6 x7) (val_main_v90 (F := F) x2)

def val_main_cst_17 : (⟨S_, .f32⟩ : BufTy).Contents (Elt F) :=
  constant S_ .f32 0x00000000#32

def val_main_v92 : (⟨S64x128, .f32⟩ : BufTy).Contents (Elt F) :=
  broadcastInDim S64x128 ![] bcast_S_S64x128 (val_main_cst_17 (F := F))

def val_main_v93 : (⟨S100000x1, .i32⟩ : BufTy).Contents (Elt F) :=
  broadcastInDim S100000x1 ![0] bcast_S100000_S100000x1_0 (x2)

def val_main_v94 : (⟨S64x128, .f32⟩ : BufTy).Contents (Elt F) :=
  Host.scatterAdd scatter_S64x128_S100000x1_S100000x128_1_0_0_1 (val_main_v92 (F := F)) (val_main_v93 (F := F) x2) (val_main_v91 (F := F) x0 x1 x2 x4 x5 x6 x7)

def val_main_cst_18 : (⟨S_, .f32⟩ : BufTy).Contents (Elt F) :=
  constant S_ .f32 0x00000000#32

def val_main_v95 : (⟨S64, .f32⟩ : BufTy).Contents (Elt F) :=
  broadcastInDim S64 ![] bcast_S_S64 (val_main_cst_18 (F := F))

def val_main_v96 : (⟨S100000x1, .i32⟩ : BufTy).Contents (Elt F) :=
  broadcastInDim S100000x1 ![0] bcast_S100000_S100000x1_0 (x2)

def val_main_v97 : (⟨S64, .f32⟩ : BufTy).Contents (Elt F) :=
  Host.scatterAdd scatter_S64_S100000x1_S100000_n_0_0_1 (val_main_v95 (F := F)) (val_main_v96 (F := F) x2) (val_main_v88 (F := F) x2)

def val_main_cst_19 : (⟨S_, .f32⟩ : BufTy).Contents (Elt F) :=
  constant S_ .f32 0x3F800000#32

def val_main_v98 : (⟨S64, .f32⟩ : BufTy).Contents (Elt F) :=
  broadcastInDim S64 ![] bcast_S_S64 (val_main_cst_19 (F := F))

def val_main_v99 : (⟨S64, .f32⟩ : BufTy).Contents (Elt F) :=
  maximumf (val_main_v97 (F := F) x2) (val_main_v98 (F := F))

def val_main_v100 : (⟨S64x1, .f32⟩ : BufTy).Contents (Elt F) :=
  broadcastInDim S64x1 ![0] bcast_S64_S64x1_0 (val_main_v99 (F := F) x2)

def val_main_v101 : (⟨S64x128, .f32⟩ : BufTy).Contents (Elt F) :=
  broadcastInDim S64x128 ![0, 1] bcast_S64x1_S64x128_0_1 (val_main_v100 (F := F) x2)

def val_main_v102 : (⟨S64x128, .f32⟩ : BufTy).Contents (Elt F) :=
  Host.divf (val_main_v94 (F := F) x0 x1 x2 x4 x5 x6 x7) (val_main_v101 (F := F) x2)

def val_main_v103 : (⟨S64x256, .f32⟩ : BufTy).Contents (Elt F) :=
  concatenate S64x256 1 [⟨S64x128, (val_main_v85 (F := F) x0 x1 x4 x5 x6 x7)⟩, ⟨S64x128, (val_main_v102 (F := F) x0 x1 x2 x4 x5 x6 x7)⟩] concatenates_S64x128_S64x128_S64x256_d1

def val_main_v104 : (⟨S64x100, .f32⟩ : BufTy).Contents (Elt F) :=
  sitofp .f32 (x3)

def val_main_v105 : (⟨S64x356, .f32⟩ : BufTy).Contents (Elt F) :=
  concatenate S64x356 1 [⟨S64x256, (val_main_v103 (F := F) x0 x1 x2 x4 x5 x6 x7)⟩, ⟨S64x100, (val_main_v104 (F := F) x3)⟩] concatenates_S64x256_S64x100_S64x356_d1

def val_main_v106 : (⟨S64x128, .f32⟩ : BufTy).Contents (Elt F) :=
  Host.dotGeneral dot_S64x356_S356x128_S64x128_1_0_0_1_n_n none (val_main_v105 (F := F) x0 x1 x2 x3 x4 x5 x6 x7) (x8)

def val_main_v107 : (⟨S1x128, .f32⟩ : BufTy).Contents (Elt F) :=
  broadcastInDim S1x128 ![1] bcast_S128_S1x128_1 (x9)

def val_main_v108 : (⟨S64x128, .f32⟩ : BufTy).Contents (Elt F) :=
  broadcastInDim S64x128 ![0, 1] bcast_S1x128_S64x128_0_1 (val_main_v107 (F := F) x9)

def val_main_v109 : (⟨S64x128, .f32⟩ : BufTy).Contents (Elt F) :=
  addf (val_main_v106 (F := F) x0 x1 x2 x3 x4 x5 x6 x7 x8) (val_main_v108 (F := F) x9)

def val_main_call1_cst : (⟨S_, .f32⟩ : BufTy).Contents (Elt F) :=
  constant S_ .f32 0x00000000#32

def val_main_call1_v0 : (⟨S64x128, .f32⟩ : BufTy).Contents (Elt F) :=
  broadcastInDim S64x128 ![] bcast_S_S64x128 (val_main_call1_cst (F := F))

def val_main_v110 : (⟨S64x128, .f32⟩ : BufTy).Contents (Elt F) :=
  maximumf (val_main_v109 (F := F) x0 x1 x2 x3 x4 x5 x6 x7 x8 x9) (val_main_call1_v0 (F := F))

def val_main_v111 : (⟨S64x128, .f32⟩ : BufTy).Contents (Elt F) :=
  Host.dotGeneral dot_S64x128_S128x128_S64x128_1_0_0_1_n_n none (val_main_v110 (F := F) x0 x1 x2 x3 x4 x5 x6 x7 x8 x9) (x10)

def val_main_v112 : (⟨S1x128, .f32⟩ : BufTy).Contents (Elt F) :=
  broadcastInDim S1x128 ![1] bcast_S128_S1x128_1 (x11)

def val_main_v113 : (⟨S64x128, .f32⟩ : BufTy).Contents (Elt F) :=
  broadcastInDim S64x128 ![0, 1] bcast_S1x128_S64x128_0_1 (val_main_v112 (F := F) x11)

def val_main_v114 : (⟨S64x128, .f32⟩ : BufTy).Contents (Elt F) :=
  addf (val_main_v111 (F := F) x0 x1 x2 x3 x4 x5 x6 x7 x8 x9 x10) (val_main_v113 (F := F) x11)

def val_main_call2_cst : (⟨S_, .f32⟩ : BufTy).Contents (Elt F) :=
  constant S_ .f32 0x00000000#32

def val_main_call2_v0 : (⟨S64x128, .f32⟩ : BufTy).Contents (Elt F) :=
  broadcastInDim S64x128 ![] bcast_S_S64x128 (val_main_call2_cst (F := F))

def val_main_v115 : (⟨S64x128, .f32⟩ : BufTy).Contents (Elt F) :=
  maximumf (val_main_v114 (F := F) x0 x1 x2 x3 x4 x5 x6 x7 x8 x9 x10 x11) (val_main_call2_v0 (F := F))

def val_main_v116 : (⟨S64x200, .f32⟩ : BufTy).Contents (Elt F) :=
  Host.dotGeneral dot_S64x128_S128x200_S64x200_1_0_0_1_n_n none (val_main_v115 (F := F) x0 x1 x2 x3 x4 x5 x6 x7 x8 x9 x10 x11) (x12)

def val_main_v117 : (⟨S1x200, .f32⟩ : BufTy).Contents (Elt F) :=
  broadcastInDim S1x200 ![1] bcast_S200_S1x200_1 (x13)

def val_main_v118 : (⟨S64x200, .f32⟩ : BufTy).Contents (Elt F) :=
  broadcastInDim S64x200 ![0, 1] bcast_S1x200_S64x200_0_1 (val_main_v117 (F := F) x13)

def val_main_v119 : (⟨S64x200, .f32⟩ : BufTy).Contents (Elt F) :=
  addf (val_main_v116 (F := F) x0 x1 x2 x3 x4 x5 x6 x7 x8 x9 x10 x11 x12) (val_main_v118 (F := F) x13)

def val_main_v120 : (⟨S64x100x2, .f32⟩ : BufTy).Contents (Elt F) :=
  shapeCast _ (val_main_v119 (F := F) x0 x1 x2 x3 x4 x5 x6 x7 x8 x9 x10 x11 x12 x13) shapeCasts_S64x200_S64x100x2

def val_main_v121 : (⟨S64x4000, .f32⟩ : BufTy).Contents (Elt F) :=
  Host.dotGeneral dot_S64x128_S128x4000_S64x4000_1_0_0_1_n_n none (val_main_v115 (F := F) x0 x1 x2 x3 x4 x5 x6 x7 x8 x9 x10 x11) (x14)

def val_main_v122 : (⟨S1x4000, .f32⟩ : BufTy).Contents (Elt F) :=
  broadcastInDim S1x4000 ![1] bcast_S4000_S1x4000_1 (x15)

def val_main_v123 : (⟨S64x4000, .f32⟩ : BufTy).Contents (Elt F) :=
  broadcastInDim S64x4000 ![0, 1] bcast_S1x4000_S64x4000_0_1 (val_main_v122 (F := F) x15)

def val_main_v124 : (⟨S64x4000, .f32⟩ : BufTy).Contents (Elt F) :=
  addf (val_main_v121 (F := F) x0 x1 x2 x3 x4 x5 x6 x7 x8 x9 x10 x11 x14) (val_main_v123 (F := F) x15)

def val_main_v125 : (⟨S64x20x100x2, .f32⟩ : BufTy).Contents (Elt F) :=
  shapeCast _ (val_main_v124 (F := F) x0 x1 x2 x3 x4 x5 x6 x7 x8 x9 x10 x11 x14 x15) shapeCasts_S64x4000_S64x20x100x2

def val_main_cst_20 : (⟨S_, .f32⟩ : BufTy).Contents (Elt F) :=
  constant S_ .f32 0xFF800000#32

def val_main_v126 : (⟨S64x100, .f32⟩ : BufTy).Contents (Elt F) :=
  Host.reduce FloatOps.maximumf (val_main_v120 (F := F) x0 x1 x2 x3 x4 x5 x6 x7 x8 x9 x10 x11 x12 x13) (val_main_cst_20 (F := F)) reducesTo_S64x100x2_S64x100_d2 h_S_

def val_main_cst_21 : (⟨S_, .f32⟩ : BufTy).Contents (Elt F) :=
  constant S_ .f32 0xFF800000#32

def val_main_v127 : (⟨S64x100, .f32⟩ : BufTy).Contents (Elt F) :=
  broadcastInDim S64x100 ![] bcast_S_S64x100 (val_main_cst_21 (F := F))

def val_main_v128 : (⟨S64x100, .f32⟩ : BufTy).Contents (Elt F) :=
  maximumf (val_main_v127 (F := F)) (val_main_v126 (F := F) x0 x1 x2 x3 x4 x5 x6 x7 x8 x9 x10 x11 x12 x13)

def val_main_v129 : (⟨S64x100x1, .f32⟩ : BufTy).Contents (Elt F) :=
  broadcastInDim S64x100x1 ![0, 1] bcast_S64x100_S64x100x1_0_1 (val_main_v128 (F := F) x0 x1 x2 x3 x4 x5 x6 x7 x8 x9 x10 x11 x12 x13)

def val_main_v130 : (⟨S64x100x2, .f32⟩ : BufTy).Contents (Elt F) :=
  broadcastInDim S64x100x2 ![0, 1, 2] bcast_S64x100x1_S64x100x2_0_1_2 (val_main_v129 (F := F) x0 x1 x2 x3 x4 x5 x6 x7 x8 x9 x10 x11 x12 x13)

def val_main_v131 : (⟨S64x100x2, .f32⟩ : BufTy).Contents (Elt F) :=
  subf (val_main_v120 (F := F) x0 x1 x2 x3 x4 x5 x6 x7 x8 x9 x10 x11 x12 x13) (val_main_v130 (F := F) x0 x1 x2 x3 x4 x5 x6 x7 x8 x9 x10 x11 x12 x13)

def val_main_v132 : (⟨S64x100x2, .f32⟩ : BufTy).Contents (Elt F) :=
  Host.exp (val_main_v131 (F := F) x0 x1 x2 x3 x4 x5 x6 x7 x8 x9 x10 x11 x12 x13)

def val_main_cst_22 : (⟨S_, .f32⟩ : BufTy).Contents (Elt F) :=
  constant S_ .f32 0x00000000#32

def val_main_v133 : (⟨S64x100, .f32⟩ : BufTy).Contents (Elt F) :=
  Host.reduceAdd (val_main_v132 (F := F) x0 x1 x2 x3 x4 x5 x6 x7 x8 x9 x10 x11 x12 x13) (val_main_cst_22 (F := F)) reducesTo_S64x100x2_S64x100_d2 h_S_

def val_main_v134 : (⟨S64x100x1, .f32⟩ : BufTy).Contents (Elt F) :=
  broadcastInDim S64x100x1 ![0, 1] bcast_S64x100_S64x100x1_0_1 (val_main_v133 (F := F) x0 x1 x2 x3 x4 x5 x6 x7 x8 x9 x10 x11 x12 x13)

def val_main_v135 : (⟨S64x100x2, .f32⟩ : BufTy).Contents (Elt F) :=
  broadcastInDim S64x100x2 ![0, 1, 2] bcast_S64x100x1_S64x100x2_0_1_2 (val_main_v134 (F := F) x0 x1 x2 x3 x4 x5 x6 x7 x8 x9 x10 x11 x12 x13)

def val_main_v136 : (⟨S64x100x2, .f32⟩ : BufTy).Contents (Elt F) :=
  Host.divf (val_main_v132 (F := F) x0 x1 x2 x3 x4 x5 x6 x7 x8 x9 x10 x11 x12 x13) (val_main_v135 (F := F) x0 x1 x2 x3 x4 x5 x6 x7 x8 x9 x10 x11 x12 x13)

def val_main_cst_23 : (⟨S_, .f32⟩ : BufTy).Contents (Elt F) :=
  constant S_ .f32 0xFF800000#32

def val_main_v137 : (⟨S64x20x100, .f32⟩ : BufTy).Contents (Elt F) :=
  Host.reduce FloatOps.maximumf (val_main_v125 (F := F) x0 x1 x2 x3 x4 x5 x6 x7 x8 x9 x10 x11 x14 x15) (val_main_cst_23 (F := F)) reducesTo_S64x20x100x2_S64x20x100_d3 h_S_

def val_main_cst_24 : (⟨S_, .f32⟩ : BufTy).Contents (Elt F) :=
  constant S_ .f32 0xFF800000#32

def val_main_v138 : (⟨S64x20x100, .f32⟩ : BufTy).Contents (Elt F) :=
  broadcastInDim S64x20x100 ![] bcast_S_S64x20x100 (val_main_cst_24 (F := F))

def val_main_v139 : (⟨S64x20x100, .f32⟩ : BufTy).Contents (Elt F) :=
  maximumf (val_main_v138 (F := F)) (val_main_v137 (F := F) x0 x1 x2 x3 x4 x5 x6 x7 x8 x9 x10 x11 x14 x15)

def val_main_v140 : (⟨S64x20x100x1, .f32⟩ : BufTy).Contents (Elt F) :=
  broadcastInDim S64x20x100x1 ![0, 1, 2] bcast_S64x20x100_S64x20x100x1_0_1_2 (val_main_v139 (F := F) x0 x1 x2 x3 x4 x5 x6 x7 x8 x9 x10 x11 x14 x15)

def val_main_v141 : (⟨S64x20x100x2, .f32⟩ : BufTy).Contents (Elt F) :=
  broadcastInDim S64x20x100x2 ![0, 1, 2, 3] bcast_S64x20x100x1_S64x20x100x2_0_1_2_3 (val_main_v140 (F := F) x0 x1 x2 x3 x4 x5 x6 x7 x8 x9 x10 x11 x14 x15)

def val_main_v142 : (⟨S64x20x100x2, .f32⟩ : BufTy).Contents (Elt F) :=
  subf (val_main_v125 (F := F) x0 x1 x2 x3 x4 x5 x6 x7 x8 x9 x10 x11 x14 x15) (val_main_v141 (F := F) x0 x1 x2 x3 x4 x5 x6 x7 x8 x9 x10 x11 x14 x15)

def val_main_v143 : (⟨S64x20x100x2, .f32⟩ : BufTy).Contents (Elt F) :=
  Host.exp (val_main_v142 (F := F) x0 x1 x2 x3 x4 x5 x6 x7 x8 x9 x10 x11 x14 x15)

def val_main_cst_25 : (⟨S_, .f32⟩ : BufTy).Contents (Elt F) :=
  constant S_ .f32 0x00000000#32

def val_main_v144 : (⟨S64x20x100, .f32⟩ : BufTy).Contents (Elt F) :=
  Host.reduceAdd (val_main_v143 (F := F) x0 x1 x2 x3 x4 x5 x6 x7 x8 x9 x10 x11 x14 x15) (val_main_cst_25 (F := F)) reducesTo_S64x20x100x2_S64x20x100_d3 h_S_

def val_main_v145 : (⟨S64x20x100x1, .f32⟩ : BufTy).Contents (Elt F) :=
  broadcastInDim S64x20x100x1 ![0, 1, 2] bcast_S64x20x100_S64x20x100x1_0_1_2 (val_main_v144 (F := F) x0 x1 x2 x3 x4 x5 x6 x7 x8 x9 x10 x11 x14 x15)

def val_main_v146 : (⟨S64x20x100x2, .f32⟩ : BufTy).Contents (Elt F) :=
  broadcastInDim S64x20x100x2 ![0, 1, 2, 3] bcast_S64x20x100x1_S64x20x100x2_0_1_2_3 (val_main_v145 (F := F) x0 x1 x2 x3 x4 x5 x6 x7 x8 x9 x10 x11 x14 x15)

def val_main_v147 : (⟨S64x20x100x2, .f32⟩ : BufTy).Contents (Elt F) :=
  Host.divf (val_main_v143 (F := F) x0 x1 x2 x3 x4 x5 x6 x7 x8 x9 x10 x11 x14 x15) (val_main_v146 (F := F) x0 x1 x2 x3 x4 x5 x6 x7 x8 x9 x10 x11 x14 x15)

end Cert.ReferenceIdeal.ReadP

end
-- ==== Proof.RefRun.Live.lean ====
import proofs.«428478_j66365834658323_2_alg».proof.Proof.RefRun.Ops
import proofs.«428478_j66365834658323_2_alg».proof.Proof.RefRead

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]
variable (a0 : (⟨S100000x128, .f32⟩ : BufTy).Contents (Elt F)) (a1 : (⟨S2x1000000, .i32⟩ : BufTy).Contents (Elt F)) (a2 : (⟨S100000, .i32⟩ : BufTy).Contents (Elt F)) (a3 : (⟨S64x100, .i32⟩ : BufTy).Contents (Elt F)) (a4 : (⟨S128x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S356x128, .f32⟩ : BufTy).Contents (Elt F)) (a9 : (⟨S128, .f32⟩ : BufTy).Contents (Elt F)) (a10 : (⟨S128x128, .f32⟩ : BufTy).Contents (Elt F)) (a11 : (⟨S128, .f32⟩ : BufTy).Contents (Elt F)) (a12 : (⟨S128x200, .f32⟩ : BufTy).Contents (Elt F)) (a13 : (⟨S200, .f32⟩ : BufTy).Contents (Elt F)) (a14 : (⟨S128x4000, .f32⟩ : BufTy).Contents (Elt F)) (a15 : (⟨S4000, .f32⟩ : BufTy).Contents (Elt F)) (W : Valuation τ sig (Elt F))

-- Each argument buffer holds the array it was given.
structure Live00 : Prop where
  main_arg0 : W (Proc.devRef .tc main_arg0) = a0
  main_arg1 : W (Proc.devRef .tc main_arg1) = a1
  main_arg2 : W (Proc.devRef .tc main_arg2) = a2
  main_arg3 : W (Proc.devRef .tc main_arg3) = a3
  main_arg4 : W (Proc.devRef .tc main_arg4) = a4
  main_arg5 : W (Proc.devRef .tc main_arg5) = a5
  main_arg6 : W (Proc.devRef .tc main_arg6) = a6
  main_arg7 : W (Proc.devRef .tc main_arg7) = a7
  main_arg8 : W (Proc.devRef .tc main_arg8) = a8
  main_arg9 : W (Proc.devRef .tc main_arg9) = a9
  main_arg10 : W (Proc.devRef .tc main_arg10) = a10
  main_arg11 : W (Proc.devRef .tc main_arg11) = a11
  main_arg12 : W (Proc.devRef .tc main_arg12) = a12
  main_arg13 : W (Proc.devRef .tc main_arg13) = a13
  main_arg14 : W (Proc.devRef .tc main_arg14) = a14
  main_arg15 : W (Proc.devRef .tc main_arg15) = a15

-- Operations that write no argument buffer leave every argument as given.
variable {a0 a1 a2 a3 a4 a5 a6 a7 a8 a9 a10 a11 a12 a13 a14 a15 W} in
theorem keepArgs (h : Live00 (F := F) a0 a1 a2 a3 a4 a5 a6 a7 a8 a9 a10 a11 a12 a13 a14 a15 W) (ops : List (HloOp τ sig (Elt F))) {Wl : List (Ref sig .tc)}
    (hw : ops.Forall fun op => op.writes ⊆ (Wl.map (Proc.devRef (τ := τ) .tc)).toFinset)
    (hd : ∀ r ∈ ([main_arg0, main_arg1, main_arg2, main_arg3, main_arg4, main_arg5, main_arg6, main_arg7, main_arg8, main_arg9, main_arg10, main_arg11, main_arg12, main_arg13, main_arg14, main_arg15] : List (Ref sig .tc)), r ∉ Wl) :
    Live00 (F := F) a0 a1 a2 a3 a4 a5 a6 a7 a8 a9 a10 a11 a12 a13 a14 a15 (after ops W) :=
  ⟨(after_of_writes_sub ops W hw (hd main_arg0 (by decide))).trans h.main_arg0,
   (after_of_writes_sub ops W hw (hd main_arg1 (by decide))).trans h.main_arg1,
   (after_of_writes_sub ops W hw (hd main_arg2 (by decide))).trans h.main_arg2,
   (after_of_writes_sub ops W hw (hd main_arg3 (by decide))).trans h.main_arg3,
   (after_of_writes_sub ops W hw (hd main_arg4 (by decide))).trans h.main_arg4,
   (after_of_writes_sub ops W hw (hd main_arg5 (by decide))).trans h.main_arg5,
   (after_of_writes_sub ops W hw (hd main_arg6 (by decide))).trans h.main_arg6,
   (after_of_writes_sub ops W hw (hd main_arg7 (by decide))).trans h.main_arg7,
   (after_of_writes_sub ops W hw (hd main_arg8 (by decide))).trans h.main_arg8,
   (after_of_writes_sub ops W hw (hd main_arg9 (by decide))).trans h.main_arg9,
   (after_of_writes_sub ops W hw (hd main_arg10 (by decide))).trans h.main_arg10,
   (after_of_writes_sub ops W hw (hd main_arg11 (by decide))).trans h.main_arg11,
   (after_of_writes_sub ops W hw (hd main_arg12 (by decide))).trans h.main_arg12,
   (after_of_writes_sub ops W hw (hd main_arg13 (by decide))).trans h.main_arg13,
   (after_of_writes_sub ops W hw (hd main_arg14 (by decide))).trans h.main_arg14,
   (after_of_writes_sub ops W hw (hd main_arg15 (by decide))).trans h.main_arg15⟩

structure Live01 : Prop extends Live00 (F := F) a0 a1 a2 a3 a4 a5 a6 a7 a8 a9 a10 a11 a12 a13 a14 a15 W where
  main_v1 : W (Proc.devRef .tc main_v1) = ReadP.val_main_v1 (F := F) a1
  main_v3 : W (Proc.devRef .tc main_v3) = ReadP.val_main_v3 (F := F) a1
  main_v4 : W (Proc.devRef .tc main_v4) = ReadP.val_main_v4 (F := F) a0 a4
  main_v5 : W (Proc.devRef .tc main_v5) = ReadP.val_main_v5 (F := F)

structure Live02 : Prop extends Live00 (F := F) a0 a1 a2 a3 a4 a5 a6 a7 a8 a9 a10 a11 a12 a13 a14 a15 W where
  main_v1 : W (Proc.devRef .tc main_v1) = ReadP.val_main_v1 (F := F) a1
  main_v3 : W (Proc.devRef .tc main_v3) = ReadP.val_main_v3 (F := F) a1
  main_v4 : W (Proc.devRef .tc main_v4) = ReadP.val_main_v4 (F := F) a0 a4
  main_v5 : W (Proc.devRef .tc main_v5) = ReadP.val_main_v5 (F := F)
  main_v6 : W (Proc.devRef .tc main_v6) = ReadP.val_main_v6 (F := F) a1

structure Live03 : Prop extends Live00 (F := F) a0 a1 a2 a3 a4 a5 a6 a7 a8 a9 a10 a11 a12 a13 a14 a15 W where
  main_v1 : W (Proc.devRef .tc main_v1) = ReadP.val_main_v1 (F := F) a1
  main_v3 : W (Proc.devRef .tc main_v3) = ReadP.val_main_v3 (F := F) a1
  main_v4 : W (Proc.devRef .tc main_v4) = ReadP.val_main_v4 (F := F) a0 a4
  main_v6 : W (Proc.devRef .tc main_v6) = ReadP.val_main_v6 (F := F) a1
  main_v7 : W (Proc.devRef .tc main_v7) = ReadP.val_main_v7 (F := F) a1
  main_v27 : W (Proc.devRef .tc main_v27) = ReadP.val_main_v27 (F := F) a1

structure Live04 : Prop extends Live00 (F := F) a0 a1 a2 a3 a4 a5 a6 a7 a8 a9 a10 a11 a12 a13 a14 a15 W where
  main_v1 : W (Proc.devRef .tc main_v1) = ReadP.val_main_v1 (F := F) a1
  main_v3 : W (Proc.devRef .tc main_v3) = ReadP.val_main_v3 (F := F) a1
  main_v45 : W (Proc.devRef .tc main_v45) = ReadP.val_main_v45 (F := F) a0 a1 a4 a5 a6
  main_v46 : W (Proc.devRef .tc main_v46) = ReadP.val_main_v46 (F := F)

structure Live05 : Prop extends Live00 (F := F) a0 a1 a2 a3 a4 a5 a6 a7 a8 a9 a10 a11 a12 a13 a14 a15 W where
  main_v3 : W (Proc.devRef .tc main_v3) = ReadP.val_main_v3 (F := F) a1
  main_v45 : W (Proc.devRef .tc main_v45) = ReadP.val_main_v45 (F := F) a0 a1 a4 a5 a6
  main_v46 : W (Proc.devRef .tc main_v46) = ReadP.val_main_v46 (F := F)
  main_v47 : W (Proc.devRef .tc main_v47) = ReadP.val_main_v47 (F := F) a1

structure Live06 : Prop extends Live00 (F := F) a0 a1 a2 a3 a4 a5 a6 a7 a8 a9 a10 a11 a12 a13 a14 a15 W where
  main_v45 : W (Proc.devRef .tc main_v45) = ReadP.val_main_v45 (F := F) a0 a1 a4 a5 a6
  main_v47 : W (Proc.devRef .tc main_v47) = ReadP.val_main_v47 (F := F) a1
  main_v48 : W (Proc.devRef .tc main_v48) = ReadP.val_main_v48 (F := F) a1
  main_v49 : W (Proc.devRef .tc main_v49) = ReadP.val_main_v49 (F := F)

structure Live07 : Prop extends Live00 (F := F) a0 a1 a2 a3 a4 a5 a6 a7 a8 a9 a10 a11 a12 a13 a14 a15 W where
  main_v45 : W (Proc.devRef .tc main_v45) = ReadP.val_main_v45 (F := F) a0 a1 a4 a5 a6
  main_v47 : W (Proc.devRef .tc main_v47) = ReadP.val_main_v47 (F := F) a1
  main_v48 : W (Proc.devRef .tc main_v48) = ReadP.val_main_v48 (F := F) a1
  main_v68 : W (Proc.devRef .tc main_v68) = ReadP.val_main_v68 (F := F) a1

structure Live08 : Prop extends Live00 (F := F) a0 a1 a2 a3 a4 a5 a6 a7 a8 a9 a10 a11 a12 a13 a14 a15 W where
  main_v84 : W (Proc.devRef .tc main_v84) = ReadP.val_main_v84 (F := F) a0 a1 a4 a5 a6 a7
  main_v85 : W (Proc.devRef .tc main_v85) = ReadP.val_main_v85 (F := F) a0 a1 a4 a5 a6 a7

structure Live09 : Prop extends Live00 (F := F) a0 a1 a2 a3 a4 a5 a6 a7 a8 a9 a10 a11 a12 a13 a14 a15 W where
  main_v85 : W (Proc.devRef .tc main_v85) = ReadP.val_main_v85 (F := F) a0 a1 a4 a5 a6 a7
  main_v94 : W (Proc.devRef .tc main_v94) = ReadP.val_main_v94 (F := F) a0 a1 a2 a4 a5 a6 a7
  main_v97 : W (Proc.devRef .tc main_v97) = ReadP.val_main_v97 (F := F) a2
  main_cst_19 : W (Proc.devRef .tc main_cst_19) = ReadP.val_main_cst_19 (F := F)

structure Live10 : Prop extends Live00 (F := F) a0 a1 a2 a3 a4 a5 a6 a7 a8 a9 a10 a11 a12 a13 a14 a15 W where
  main_v85 : W (Proc.devRef .tc main_v85) = ReadP.val_main_v85 (F := F) a0 a1 a4 a5 a6 a7
  main_v102 : W (Proc.devRef .tc main_v102) = ReadP.val_main_v102 (F := F) a0 a1 a2 a4 a5 a6 a7

structure Live11 : Prop extends Live00 (F := F) a0 a1 a2 a3 a4 a5 a6 a7 a8 a9 a10 a11 a12 a13 a14 a15 W where
  main_v103 : W (Proc.devRef .tc main_v103) = ReadP.val_main_v103 (F := F) a0 a1 a2 a4 a5 a6 a7
  main_v104 : W (Proc.devRef .tc main_v104) = ReadP.val_main_v104 (F := F) a3

structure Live12 : Prop extends Live00 (F := F) a0 a1 a2 a3 a4 a5 a6 a7 a8 a9 a10 a11 a12 a13 a14 a15 W where
  main_v120 : W (Proc.devRef .tc main_v120) = ReadP.val_main_v120 (F := F) a0 a1 a2 a3 a4 a5 a6 a7 a8 a9 a10 a11 a12 a13
  main_v125 : W (Proc.devRef .tc main_v125) = ReadP.val_main_v125 (F := F) a0 a1 a2 a3 a4 a5 a6 a7 a8 a9 a10 a11 a14 a15

structure Live13 : Prop extends Live00 (F := F) a0 a1 a2 a3 a4 a5 a6 a7 a8 a9 a10 a11 a12 a13 a14 a15 W where
  main_v125 : W (Proc.devRef .tc main_v125) = ReadP.val_main_v125 (F := F) a0 a1 a2 a3 a4 a5 a6 a7 a8 a9 a10 a11 a14 a15
  main_v136 : W (Proc.devRef .tc main_v136) = ReadP.val_main_v136 (F := F) a0 a1 a2 a3 a4 a5 a6 a7 a8 a9 a10 a11 a12 a13

structure Live14 : Prop extends Live00 (F := F) a0 a1 a2 a3 a4 a5 a6 a7 a8 a9 a10 a11 a12 a13 a14 a15 W where
  main_v136 : W (Proc.devRef .tc main_v136) = ReadP.val_main_v136 (F := F) a0 a1 a2 a3 a4 a5 a6 a7 a8 a9 a10 a11 a12 a13
  main_v147 : W (Proc.devRef .tc main_v147) = ReadP.val_main_v147 (F := F) a0 a1 a2 a3 a4 a5 a6 a7 a8 a9 a10 a11 a14 a15
end Cert.ReferenceIdeal.RunH

end
-- ==== Proof.RefRun.S01.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch01 (a0 a1 a2 a3 a4 a5 a6 a7 a8 a9 a10 a11 a12 a13 a14 a15 W)
    (h : Live00 (F := F) a0 a1 a2 a3 a4 a5 a6 a7 a8 a9 a10 a11 a12 a13 a14 a15 W) : Live01 (F := F) a0 a1 a2 a3 a4 a5 a6 a7 a8 a9 a10 a11 a12 a13 a14 a15 (after ops01 W) :=
  { toLive00 := keepArgs h ops01 ops01_writes (by decide)
    main_v1 := by
      dsimp only [ops01]
      after_results_simp
      rw [h.main_arg1]
      rfl
    main_v3 := by
      dsimp only [ops01]
      after_results_simp
      rw [h.main_arg1]
      rfl
    main_v4 := by
      dsimp only [ops01]
      after_results_simp
      rw [h.main_arg0, h.main_arg4]
      rfl
    main_v5 := by
      dsimp only [ops01]
      after_results_simp
      rfl }
end Cert.ReferenceIdeal.RunH

end
-- ==== Proof.RefRun.S02.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch02 (a0 a1 a2 a3 a4 a5 a6 a7 a8 a9 a10 a11 a12 a13 a14 a15 W)
    (h : Live01 (F := F) a0 a1 a2 a3 a4 a5 a6 a7 a8 a9 a10 a11 a12 a13 a14 a15 W) : Live02 (F := F) a0 a1 a2 a3 a4 a5 a6 a7 a8 a9 a10 a11 a12 a13 a14 a15 (after ops02 W) :=
  { toLive00 := keepArgs h.toLive00 ops02 ops02_writes (by decide)
    main_v1 := (after_of_writes_sub ops02 W ops02_writes (by decide)).trans h.main_v1
    main_v3 := (after_of_writes_sub ops02 W ops02_writes (by decide)).trans h.main_v3
    main_v4 := (after_of_writes_sub ops02 W ops02_writes (by decide)).trans h.main_v4
    main_v5 := (after_of_writes_sub ops02 W ops02_writes (by decide)).trans h.main_v5
    main_v6 := by
      dsimp only [ops02]
      after_results_simp
      rw [h.main_v1, h.main_v5]
      rfl }
end Cert.ReferenceIdeal.RunH

end
-- ==== Proof.RefRun.S03.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch03 (a0 a1 a2 a3 a4 a5 a6 a7 a8 a9 a10 a11 a12 a13 a14 a15 W)
    (h : Live02 (F := F) a0 a1 a2 a3 a4 a5 a6 a7 a8 a9 a10 a11 a12 a13 a14 a15 W) : Live03 (F := F) a0 a1 a2 a3 a4 a5 a6 a7 a8 a9 a10 a11 a12 a13 a14 a15 (after ops03 W) :=
  { toLive00 := keepArgs h.toLive00 ops03 ops03_writes (by decide)
    main_v1 := (after_of_writes_sub ops03 W ops03_writes (by decide)).trans h.main_v1
    main_v3 := (after_of_writes_sub ops03 W ops03_writes (by decide)).trans h.main_v3
    main_v4 := (after_of_writes_sub ops03 W ops03_writes (by decide)).trans h.main_v4
    main_v6 := (after_of_writes_sub ops03 W ops03_writes (by decide)).trans h.main_v6
    main_v7 := by
      dsimp only [ops03]
      after_results_simp
      rw [h.main_v3, h.main_v5]
      rfl
    main_v27 := by
      dsimp only [ops03]
      after_results_simp
      rw [h.main_v3, h.main_v5, h.main_v6]
      rfl }
end Cert.ReferenceIdeal.RunH

end
-- ==== Proof.RefRun.S04.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch04 (a0 a1 a2 a3 a4 a5 a6 a7 a8 a9 a10 a11 a12 a13 a14 a15 W)
    (h : Live03 (F := F) a0 a1 a2 a3 a4 a5 a6 a7 a8 a9 a10 a11 a12 a13 a14 a15 W) : Live04 (F := F) a0 a1 a2 a3 a4 a5 a6 a7 a8 a9 a10 a11 a12 a13 a14 a15 (after ops04 W) :=
  { toLive00 := keepArgs h.toLive00 ops04 ops04_writes (by decide)
    main_v1 := (after_of_writes_sub ops04 W ops04_writes (by decide)).trans h.main_v1
    main_v3 := (after_of_writes_sub ops04 W ops04_writes (by decide)).trans h.main_v3
    main_v45 := by
      dsimp only [ops04]
      after_results_simp
      try simp only [TRef.ofBuf, TRef.toBuf, cast_eq]
      rw [h.main_v7, h.main_v4, h.main_v6, h.main_v27, h.main_arg5, h.main_arg6]
      rfl
    main_v46 := by
      dsimp only [ops04]
      after_results_simp
      try simp only [TRef.ofBuf, TRef.toBuf, cast_eq]
      rfl }
end Cert.ReferenceIdeal.RunH

end
-- ==== Proof.RefRun.S05.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch05 (a0 a1 a2 a3 a4 a5 a6 a7 a8 a9 a10 a11 a12 a13 a14 a15 W)
    (h : Live04 (F := F) a0 a1 a2 a3 a4 a5 a6 a7 a8 a9 a10 a11 a12 a13 a14 a15 W) : Live05 (F := F) a0 a1 a2 a3 a4 a5 a6 a7 a8 a9 a10 a11 a12 a13 a14 a15 (after ops05 W) :=
  { toLive00 := keepArgs h.toLive00 ops05 ops05_writes (by decide)
    main_v3 := (after_of_writes_sub ops05 W ops05_writes (by decide)).trans h.main_v3
    main_v45 := (after_of_writes_sub ops05 W ops05_writes (by decide)).trans h.main_v45
    main_v46 := (after_of_writes_sub ops05 W ops05_writes (by decide)).trans h.main_v46
    main_v47 := by
      dsimp only [ops05]
      after_results_simp
      rw [h.main_v1, h.main_v46]
      rfl }
end Cert.ReferenceIdeal.RunH

end
-- ==== Proof.RefRun.S06.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch06 (a0 a1 a2 a3 a4 a5 a6 a7 a8 a9 a10 a11 a12 a13 a14 a15 W)
    (h : Live05 (F := F) a0 a1 a2 a3 a4 a5 a6 a7 a8 a9 a10 a11 a12 a13 a14 a15 W) : Live06 (F := F) a0 a1 a2 a3 a4 a5 a6 a7 a8 a9 a10 a11 a12 a13 a14 a15 (after ops06 W) :=
  { toLive00 := keepArgs h.toLive00 ops06 ops06_writes (by decide)
    main_v45 := (after_of_writes_sub ops06 W ops06_writes (by decide)).trans h.main_v45
    main_v47 := (after_of_writes_sub ops06 W ops06_writes (by decide)).trans h.main_v47
    main_v48 := by
      dsimp only [ops06]
      after_results_simp
      rw [h.main_v3, h.main_v46]
      rfl
    main_v49 := by
      dsimp only [ops06]
      after_results_simp
      rfl }
end Cert.ReferenceIdeal.RunH

end
-- ==== Proof.RefRun.S07.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch07 (a0 a1 a2 a3 a4 a5 a6 a7 a8 a9 a10 a11 a12 a13 a14 a15 W)
    (h : Live06 (F := F) a0 a1 a2 a3 a4 a5 a6 a7 a8 a9 a10 a11 a12 a13 a14 a15 W) : Live07 (F := F) a0 a1 a2 a3 a4 a5 a6 a7 a8 a9 a10 a11 a12 a13 a14 a15 (after ops07 W) :=
  { toLive00 := keepArgs h.toLive00 ops07 ops07_writes (by decide)
    main_v45 := (after_of_writes_sub ops07 W ops07_writes (by decide)).trans h.main_v45
    main_v47 := (after_of_writes_sub ops07 W ops07_writes (by decide)).trans h.main_v47
    main_v48 := (after_of_writes_sub ops07 W ops07_writes (by decide)).trans h.main_v48
    main_v68 := by
      dsimp only [ops07]
      after_results_simp
      rw [h.main_v48, h.main_v49, h.main_v47]
      rfl }
end Cert.ReferenceIdeal.RunH

end
-- ==== Proof.RefRun.S08.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch08 (a0 a1 a2 a3 a4 a5 a6 a7 a8 a9 a10 a11 a12 a13 a14 a15 W)
    (h : Live07 (F := F) a0 a1 a2 a3 a4 a5 a6 a7 a8 a9 a10 a11 a12 a13 a14 a15 W) : Live08 (F := F) a0 a1 a2 a3 a4 a5 a6 a7 a8 a9 a10 a11 a12 a13 a14 a15 (after ops08 W) :=
  { toLive00 := keepArgs h.toLive00 ops08 ops08_writes (by decide)
    main_v84 := by
      dsimp only [ops08]
      after_results_simp
      rw [h.main_v48, h.main_v45, h.main_v47, h.main_v68, h.main_arg7]
      rfl
    main_v85 := by
      dsimp only [ops08]
      after_results_simp
      rw [h.main_v48, h.main_v45, h.main_v47, h.main_v68, h.main_arg7]
      rfl }
end Cert.ReferenceIdeal.RunH

end
-- ==== Proof.RefRun.S09.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch09 (a0 a1 a2 a3 a4 a5 a6 a7 a8 a9 a10 a11 a12 a13 a14 a15 W)
    (h : Live08 (F := F) a0 a1 a2 a3 a4 a5 a6 a7 a8 a9 a10 a11 a12 a13 a14 a15 W) : Live09 (F := F) a0 a1 a2 a3 a4 a5 a6 a7 a8 a9 a10 a11 a12 a13 a14 a15 (after ops09 W) :=
  { toLive00 := keepArgs h.toLive00 ops09 ops09_writes (by decide)
    main_v85 := (after_of_writes_sub ops09 W ops09_writes (by decide)).trans h.main_v85
    main_v94 := by
      dsimp only [ops09]
      after_results_simp
      rw [h.main_arg2, h.main_v84]
      rfl
    main_v97 := by
      dsimp only [ops09]
      after_results_simp
      rw [h.main_arg2]
      rfl
    main_cst_19 := by
      dsimp only [ops09]
      after_results_simp
      rfl }
end Cert.ReferenceIdeal.RunH

end
-- ==== Proof.RefRun.S10.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch10 (a0 a1 a2 a3 a4 a5 a6 a7 a8 a9 a10 a11 a12 a13 a14 a15 W)
    (h : Live09 (F := F) a0 a1 a2 a3 a4 a5 a6 a7 a8 a9 a10 a11 a12 a13 a14 a15 W) : Live10 (F := F) a0 a1 a2 a3 a4 a5 a6 a7 a8 a9 a10 a11 a12 a13 a14 a15 (after ops10 W) :=
  { toLive00 := keepArgs h.toLive00 ops10 ops10_writes (by decide)
    main_v85 := (after_of_writes_sub ops10 W ops10_writes (by decide)).trans h.main_v85
    main_v102 := by
      dsimp only [ops10]
      after_results_simp
      rw [h.main_v94, h.main_v97, h.main_cst_19]
      rfl }
end Cert.ReferenceIdeal.RunH

end
-- ==== Proof.RefRun.S11.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch11 (a0 a1 a2 a3 a4 a5 a6 a7 a8 a9 a10 a11 a12 a13 a14 a15 W)
    (h : Live10 (F := F) a0 a1 a2 a3 a4 a5 a6 a7 a8 a9 a10 a11 a12 a13 a14 a15 W) : Live11 (F := F) a0 a1 a2 a3 a4 a5 a6 a7 a8 a9 a10 a11 a12 a13 a14 a15 (after ops11 W) :=
  { toLive00 := keepArgs h.toLive00 ops11 ops11_writes (by decide)
    main_v103 := by
      dsimp only [ops11]
      after_results_simp
      rw [h.main_v85, h.main_v102]
      rfl
    main_v104 := by
      dsimp only [ops11]
      after_results_simp
      rw [h.main_arg3]
      rfl }
end Cert.ReferenceIdeal.RunH

end
-- ==== Proof.RefRun.S12.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch12 (a0 a1 a2 a3 a4 a5 a6 a7 a8 a9 a10 a11 a12 a13 a14 a15 W)
    (h : Live11 (F := F) a0 a1 a2 a3 a4 a5 a6 a7 a8 a9 a10 a11 a12 a13 a14 a15 W) : Live12 (F := F) a0 a1 a2 a3 a4 a5 a6 a7 a8 a9 a10 a11 a12 a13 a14 a15 (after ops12 W) :=
  { toLive00 := keepArgs h.toLive00 ops12 ops12_writes (by decide)
    main_v120 := by
      dsimp only [ops12]
      after_results_simp
      try simp only [TRef.ofBuf, TRef.toBuf, cast_eq]
      rw [h.main_v103, h.main_v104, h.main_arg8, h.main_arg9, h.main_arg10, h.main_arg11, h.main_arg12, h.main_arg13]
      rfl
    main_v125 := by
      dsimp only [ops12]
      after_results_simp
      try simp only [TRef.ofBuf, TRef.toBuf, cast_eq]
      rw [h.main_v103, h.main_v104, h.main_arg8, h.main_arg9, h.main_arg10, h.main_arg11, h.main_arg14, h.main_arg15]
      rfl }
end Cert.ReferenceIdeal.RunH

end
-- ==== Proof.RefRun.S13.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch13 (a0 a1 a2 a3 a4 a5 a6 a7 a8 a9 a10 a11 a12 a13 a14 a15 W)
    (h : Live12 (F := F) a0 a1 a2 a3 a4 a5 a6 a7 a8 a9 a10 a11 a12 a13 a14 a15 W) : Live13 (F := F) a0 a1 a2 a3 a4 a5 a6 a7 a8 a9 a10 a11 a12 a13 a14 a15 (after ops13 W) :=
  { toLive00 := keepArgs h.toLive00 ops13 ops13_writes (by decide)
    main_v125 := (after_of_writes_sub ops13 W ops13_writes (by decide)).trans h.main_v125
    main_v136 := by
      dsimp only [ops13]
      after_results_simp
      rw [h.main_v120]
      rfl }
end Cert.ReferenceIdeal.RunH

end
-- ==== Proof.RefRun.S14.lean ====
import proofs.«428478_j66365834658323_2_alg».proof.Proof.RefRun.Live

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem stretch14 (a0 a1 a2 a3 a4 a5 a6 a7 a8 a9 a10 a11 a12 a13 a14 a15 W)
    (h : Live13 (F := F) a0 a1 a2 a3 a4 a5 a6 a7 a8 a9 a10 a11 a12 a13 a14 a15 W) : Live14 (F := F) a0 a1 a2 a3 a4 a5 a6 a7 a8 a9 a10 a11 a12 a13 a14 a15 (after ops14 W) :=
  { toLive00 := keepArgs h.toLive00 ops14 ops14_writes (by decide)
    main_v136 := (after_of_writes_sub ops14 W ops14_writes (by decide)).trans h.main_v136
    main_v147 := by
      dsimp only [ops14]
      after_results_simp
      rw [h.main_v125]
      rfl }
end Cert.ReferenceIdeal.RunH

end
-- ==== Proof.RefRun.Run.lean ====
import proofs.«428478_j66365834658323_2_alg».proof.Proof.RefRun.S01
import proofs.«428478_j66365834658323_2_alg».proof.Proof.RefRun.S02
import proofs.«428478_j66365834658323_2_alg».proof.Proof.RefRun.S03
import proofs.«428478_j66365834658323_2_alg».proof.Proof.RefRun.S04
import proofs.«428478_j66365834658323_2_alg».proof.Proof.RefRun.S05
import proofs.«428478_j66365834658323_2_alg».proof.Proof.RefRun.S06
import proofs.«428478_j66365834658323_2_alg».proof.Proof.RefRun.S07
import proofs.«428478_j66365834658323_2_alg».proof.Proof.RefRun.S08
import proofs.«428478_j66365834658323_2_alg».proof.Proof.RefRun.S09
import proofs.«428478_j66365834658323_2_alg».proof.Proof.RefRun.S10
import proofs.«428478_j66365834658323_2_alg».proof.Proof.RefRun.S11
import proofs.«428478_j66365834658323_2_alg».proof.Proof.RefRun.S12
import proofs.«428478_j66365834658323_2_alg».proof.Proof.RefRun.S13
import proofs.«428478_j66365834658323_2_alg».proof.Proof.RefRun.S14

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

abbrev ops : List (HloOp τ sig (Elt F)) := (ops01 ++ ops02 ++ ops03 ++ ops04 ++ ops05 ++ ops06) ++ ((ops07 ++ ops08 ++ ops09) ++ (ops10 ++ ops11 ++ ops12 ++ ops13 ++ ops14))

set_option maxRecDepth 8192 in
set_option maxHeartbeats 4000000 in
theorem main_part0_eq (c : Dev nD) : main_part0 (F := F) c = seq (ops01 ++ ops02 ++ ops03 ++ ops04 ++ ops05 ++ ops06) := rfl
set_option maxRecDepth 8192 in
set_option maxHeartbeats 4000000 in
theorem main_part1_eq (c : Dev nD) : main_part1 (F := F) c = seq (ops07 ++ ops08 ++ ops09) := rfl
set_option maxRecDepth 8192 in
set_option maxHeartbeats 4000000 in
theorem main_part2_eq (c : Dev nD) : main_part2 (F := F) c = seq (ops10 ++ ops11 ++ ops12 ++ ops13 ++ ops14) := rfl
set_option maxRecDepth 8192 in
theorem main_eq (c : Dev nD) : main (F := F) c = seq ops := by
  show main (F := F) c = seq ((ops01 ++ ops02 ++ ops03 ++ ops04 ++ ops05 ++ ops06) ++ ((ops07 ++ ops08 ++ ops09) ++ (ops10 ++ ops11 ++ ops12 ++ ops13 ++ ops14)))
  rw [seq_append (ops01 ++ ops02 ++ ops03 ++ ops04 ++ ops05 ++ ops06) _, seq_append (ops07 ++ ops08 ++ ops09) _, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [ops, List.forall_append]
  exact ⟨⟨⟨⟨⟨⟨ops01_sub, ops02_sub⟩, ops03_sub⟩, ops04_sub⟩, ops05_sub⟩, ops06_sub⟩, ⟨⟨ops07_sub, ops08_sub⟩, ops09_sub⟩, ⟨⟨⟨⟨ops10_sub, ops11_sub⟩, ops12_sub⟩, ops13_sub⟩, ops14_sub⟩⟩
theorem ops_fresh : ∀ op ∈ (ops : List (HloOp τ sig (Elt F))), op.fresh = ∅ := List.forall_iff_forall_mem.mp <| by
  simp only [ops, List.forall_append]
  exact ⟨⟨⟨⟨⟨⟨List.forall_iff_forall_mem.mpr ops01_fresh, List.forall_iff_forall_mem.mpr ops02_fresh⟩, List.forall_iff_forall_mem.mpr ops03_fresh⟩, List.forall_iff_forall_mem.mpr ops04_fresh⟩, List.forall_iff_forall_mem.mpr ops05_fresh⟩, List.forall_iff_forall_mem.mpr ops06_fresh⟩, ⟨⟨List.forall_iff_forall_mem.mpr ops07_fresh, List.forall_iff_forall_mem.mpr ops08_fresh⟩, List.forall_iff_forall_mem.mpr ops09_fresh⟩, ⟨⟨⟨⟨List.forall_iff_forall_mem.mpr ops10_fresh, List.forall_iff_forall_mem.mpr ops11_fresh⟩, List.forall_iff_forall_mem.mpr ops12_fresh⟩, List.forall_iff_forall_mem.mpr ops13_fresh⟩, List.forall_iff_forall_mem.mpr ops14_fresh⟩⟩

theorem live00 (m : (ℓ : Loc nD τ sig) → Buf (Elt F) ℓ) (c : Dev nD) : Live00 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (launchContents m c) :=
  ⟨rfl, rfl, rfl, rfl, rfl, rfl, rfl, rfl, rfl, rfl, rfl, rfl, rfl, rfl, rfl, rfl⟩

theorem live_end (m : (ℓ : Loc nD τ sig) → Buf (Elt F) ℓ) (c : Dev nD) : Live14 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (after ops (launchContents m c)) := by
  simp only [ops, after_app]
  exact stretch14 _ _ _ _ _ _ _ _ _ _ _ _ _ _ _ _ _ (stretch13 _ _ _ _ _ _ _ _ _ _ _ _ _ _ _ _ _ (stretch12 _ _ _ _ _ _ _ _ _ _ _ _ _ _ _ _ _ (stretch11 _ _ _ _ _ _ _ _ _ _ _ _ _ _ _ _ _ (stretch10 _ _ _ _ _ _ _ _ _ _ _ _ _ _ _ _ _ (stretch09 _ _ _ _ _ _ _ _ _ _ _ _ _ _ _ _ _ (stretch08 _ _ _ _ _ _ _ _ _ _ _ _ _ _ _ _ _ (stretch07 _ _ _ _ _ _ _ _ _ _ _ _ _ _ _ _ _ (stretch06 _ _ _ _ _ _ _ _ _ _ _ _ _ _ _ _ _ (stretch05 _ _ _ _ _ _ _ _ _ _ _ _ _ _ _ _ _ (stretch04 _ _ _ _ _ _ _ _ _ _ _ _ _ _ _ _ _ (stretch03 _ _ _ _ _ _ _ _ _ _ _ _ _ _ _ _ _ (stretch02 _ _ _ _ _ _ _ _ _ _ _ _ _ _ _ _ _ (stretch01 _ _ _ _ _ _ _ _ _ _ _ _ _ _ _ _ _ (live00 m c))))))))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v136) = ReadP.val_main_v136 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v147) = ReadP.val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v136).trans (live_end m c).main_v136,
      (h c main_v147).trans (live_end m c).main_v147,
      (h c main_arg0).trans (live_end m c).main_arg0,
      (h c main_arg1).trans (live_end m c).main_arg1,
      (h c main_arg2).trans (live_end m c).main_arg2,
      (h c main_arg3).trans (live_end m c).main_arg3,
      (h c main_arg4).trans (live_end m c).main_arg4,
      (h c main_arg5).trans (live_end m c).main_arg5,
      (h c main_arg6).trans (live_end m c).main_arg6,
      (h c main_arg7).trans (live_end m c).main_arg7,
      (h c main_arg8).trans (live_end m c).main_arg8,
      (h c main_arg9).trans (live_end m c).main_arg9,
      (h c main_arg10).trans (live_end m c).main_arg10,
      (h c main_arg11).trans (live_end m c).main_arg11,
      (h c main_arg12).trans (live_end m c).main_arg12,
      (h c main_arg13).trans (live_end m c).main_arg13,
      (h c main_arg14).trans (live_end m c).main_arg14,
      (h c main_arg15).trans (live_end m c).main_arg15⟩)
    (run_seq scopedRefs_eq scopedSems_eq defs main (fun _ => ops) main_eq (fun _ => ops_sub) m ρ (fun _ => ops_fresh))
end Cert.ReferenceIdeal.RunH

end
-- ==== Proof.Val.MatmulRows.lean ====
import proofs.«428478_j66365834658323_2_alg».proof.Proof.Gen.KernelIdeal.Launch
import proofs.«428478_j66365834658323_2_alg».proof.Proof.Gen.KernelIdeal.Skeleton
import proofs.«428478_j66365834658323_2_alg».proof.Proof.Gen.KernelIdeal.Points
import proofs.«428478_j66365834658323_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.Val

open Idealize.ShloMosaic Idealize.ShloMosaic.TcCoe Idealize.SL.Sem
open Cert.KernelIdeal Cert.KernelIdeal.Gen
open scoped BigOperators

abbrev leftAt (i : S100000x128.Idx) (k : Fin 128) : S100000x128.Idx := fun a => match a with
  | ⟨0, _⟩ => ⟨(i 0).val, (i 0).isLt⟩
  | ⟨1, _⟩ => ⟨k.val, k.isLt⟩

abbrev rightAt (i : S100000x128.Idx) (k : Fin 128) : S128x128.Idx := fun a => match a with
  | ⟨0, _⟩ => ⟨k.val, k.isLt⟩
  | ⟨1, _⟩ => ⟨(i 1).val, (i 1).isLt⟩

theorem whole_lhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem whole_lhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem whole_rhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem whole_rhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

theorem whole_apply (x : FVec Ideal S100000x128 .f32) (w : FVec Ideal S128x128 .f32) (i : S100000x128.Idx) :
    Host.dotGeneral (F := Ideal) Cert.ReferenceIdeal.dot_S100000x128_S128x128_S100000x128_1_0_0_1_n_n none x w i
      = ∑ k : Fin 128, x (leftAt i k) * w (rightAt i k) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = leftAt i k := funext fun a => Fin.ext (by
    match a with
    | ⟨0, _⟩ => exact whole_lhs_0 _ _
    | ⟨1, _⟩ => exact (whole_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = rightAt i k := funext fun a => Fin.ext (by
    match a with
    | ⟨0, _⟩ => exact (whole_rhs_0 _ _).trans hk
    | ⟨1, _⟩ => exact whole_rhs_1 _ _)
  rw [el, er]

abbrev tileLeftAt (j : S10000x128.Idx) (k : Fin 128) : S10000x128.Idx := fun a => match a with
  | ⟨0, _⟩ => ⟨(j 0).val, (j 0).isLt⟩
  | ⟨1, _⟩ => ⟨k.val, k.isLt⟩

abbrev tileRightAt (j : S10000x128.Idx) (k : Fin 128) : S128x128.Idx := fun a => match a with
  | ⟨0, _⟩ => ⟨k.val, k.isLt⟩
  | ⟨1, _⟩ => ⟨(j 1).val, (j 1).isLt⟩

theorem tile_lhs_0 (j : S10000x128.Idx) (q : Cert.KernelIdeal.dot_S10000x128_S128x128_S10000x128_1_0_0_1_n_n.contr.Idx) :
    (Cert.KernelIdeal.dot_S10000x128_S128x128_S10000x128_1_0_0_1_n_n.lhsIdx j q 0).val = (j 0).val := by
  unfold DotDims.lhsIdx
  rw [dif_neg (show ¬(0 : Fin S10000x128.rank) ∈ Cert.KernelIdeal.dot_S10000x128_S128x128_S10000x128_1_0_0_1_n_n.lhsBatch by decide), dif_pos (show (0 : Fin S10000x128.rank) ∈ Cert.KernelIdeal.dot_S10000x128_S128x128_S10000x128_1_0_0_1_n_n.lhsNonContracting by decide)]
  rfl
theorem tile_lhs_1 (j : S10000x128.Idx) (q : Cert.KernelIdeal.dot_S10000x128_S128x128_S10000x128_1_0_0_1_n_n.contr.Idx) :
    (Cert.KernelIdeal.dot_S10000x128_S128x128_S10000x128_1_0_0_1_n_n.lhsIdx j q 1).val = (q ⟨0, by decide⟩).val :=
  Cert.KernelIdeal.dot_S10000x128_S128x128_S10000x128_1_0_0_1_n_n.lhsIdx_val_of_single rfl j q
theorem tile_rhs_0 (j : S10000x128.Idx) (q : Cert.KernelIdeal.dot_S10000x128_S128x128_S10000x128_1_0_0_1_n_n.contr.Idx) :
    (Cert.KernelIdeal.dot_S10000x128_S128x128_S10000x128_1_0_0_1_n_n.rhsIdx j q 0).val = (q ⟨0, by decide⟩).val :=
  Cert.KernelIdeal.dot_S10000x128_S128x128_S10000x128_1_0_0_1_n_n.rhsIdx_val_of_single rfl j q
theorem tile_rhs_1 (j : S10000x128.Idx) (q : Cert.KernelIdeal.dot_S10000x128_S128x128_S10000x128_1_0_0_1_n_n.contr.Idx) :
    (Cert.KernelIdeal.dot_S10000x128_S128x128_S10000x128_1_0_0_1_n_n.rhsIdx j q 1).val = (j 1).val := by
  unfold DotDims.rhsIdx
  rw [dif_neg (show ¬(1 : Fin S128x128.rank) ∈ Cert.KernelIdeal.dot_S10000x128_S128x128_S10000x128_1_0_0_1_n_n.rhsBatch by decide), dif_pos (show (1 : Fin S128x128.rank) ∈ Cert.KernelIdeal.dot_S10000x128_S128x128_S10000x128_1_0_0_1_n_n.rhsNonContracting by decide)]
  rfl

theorem tile_matmul_apply (x : FVec Ideal S10000x128 .bf16) (w : FVec Ideal S128x128 .bf16) (j : S10000x128.Idx) :
    matmul (F := Ideal) Cert.KernelIdeal.dot_S10000x128_S128x128_S10000x128_1_0_0_1_n_n none x w (constant (F := Ideal) S10000x128 .f32 0x00000000#32) j
      = ∑ k : Fin 128, x (tileLeftAt j k) * w (tileRightAt j k) := by
  show FloatOps.matmul Cert.KernelIdeal.dot_S10000x128_S128x128_S10000x128_1_0_0_1_n_n none x w (constant (F := Ideal) S10000x128 .f32 0x00000000#32) j = _
  rw [Ideal.matmul_constant_zero_apply, ← Equiv.sum_comp (ValueIdx.contrEquiv1 Cert.KernelIdeal.dot_S10000x128_S128x128_S10000x128_1_0_0_1_n_n 128 rfl rfl).symm]
  refine Finset.sum_congr rfl fun k _ => ?_
  have hk := ValueIdx.contrEquiv1_symm_val Cert.KernelIdeal.dot_S10000x128_S128x128_S10000x128_1_0_0_1_n_n 128 rfl rfl k
  have el : Cert.KernelIdeal.dot_S10000x128_S128x128_S10000x128_1_0_0_1_n_n.lhsIdx j ((ValueIdx.contrEquiv1 Cert.KernelIdeal.dot_S10000x128_S128x128_S10000x128_1_0_0_1_n_n 128 rfl rfl).symm k) = tileLeftAt j k := funext fun a => Fin.ext (by
    match a with
    | ⟨0, _⟩ => exact tile_lhs_0 _ _
    | ⟨1, _⟩ => exact (tile_lhs_1 _ _).trans hk)
  have er : Cert.KernelIdeal.dot_S10000x128_S128x128_S10000x128_1_0_0_1_n_n.rhsIdx j ((ValueIdx.contrEquiv1 Cert.KernelIdeal.dot_S10000x128_S128x128_S10000x128_1_0_0_1_n_n 128 rfl rfl).symm k) = tileRightAt j k := funext fun a => Fin.ext (by
    match a with
    | ⟨0, _⟩ => exact (tile_rhs_0 _ _).trans hk
    | ⟨1, _⟩ => exact tile_rhs_1 _ _)
  rw [el, er]

theorem stored0_eq (x : FVec Ideal S10000x128 .bf16) (w : FVec Ideal S128x128 .bf16) :
    k0_pay1 (F := Ideal) x w = matmul (F := Ideal) Cert.KernelIdeal.dot_S10000x128_S128x128_S10000x128_1_0_0_1_n_n none x w (constant (F := Ideal) S10000x128 .f32 0x00000000#32) := by
  unfold k0_pay1
  simp only [shapeCast_self]

theorem stored1_eq (x : FVec Ideal S10000x128 .bf16) (w : FVec Ideal S128x128 .bf16) :
    k1_pay1 (F := Ideal) x w = matmul (F := Ideal) Cert.KernelIdeal.dot_S10000x128_S128x128_S10000x128_1_0_0_1_n_n none x w (constant (F := Ideal) S10000x128 .f32 0x00000000#32) := by
  unfold k1_pay1
  simp only [shapeCast_self]

-- A row block of the whole product is the product of that row block with the whole right factor.
theorem tile_of_whole (X : FVec Ideal S100000x128 .f32) (W : FVec Ideal S128x128 .f32)
    (x : FVec Ideal S10000x128 .bf16) (w : FVec Ideal S128x128 .bf16)
    (e0 : S10000x128.Idx → S100000x128.Idx) (e1 : S128x128.Idx → S128x128.Idx) (e2 : S10000x128.Idx → S100000x128.Idx)
    (hx : ∀ y, x y = X (e0 y)) (hw : ∀ y, w y = W (e1 y))
    (h0 : ∀ j k, e0 (tileLeftAt j k) = leftAt (e2 j) k) (h1 : ∀ j k, e1 (tileRightAt j k) = rightAt (e2 j) k)
    (j : S10000x128.Idx) :
    matmul (F := Ideal) Cert.KernelIdeal.dot_S10000x128_S128x128_S10000x128_1_0_0_1_n_n none x w (constant (F := Ideal) S10000x128 .f32 0x00000000#32) j
      = Host.dotGeneral (F := Ideal) Cert.ReferenceIdeal.dot_S100000x128_S128x128_S100000x128_1_0_0_1_n_n none X W (e2 j) := by
  rw [tile_matmul_apply, whole_apply]
  refine Finset.sum_congr rfl fun k _ => ?_
  rw [hx, hw, h0, h1]

theorem rows0_index : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

theorem rows0_onto : ∀ q : Fin 10, ∃ t : Fin cfg0.N, win0_2.index t = ![q.val, 0] :=
  (by decide +kernel : ∀ q : Fin 10, ∃ t : Fin grid0.N, win0_2.index t = ![q.val, 0])

theorem rows0_mem (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

theorem rows0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := rows0_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [rows0_mem]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

section
variable {c : Dev nD} (dat : Pipeline.Dat τ (Elt Ideal) Unit ℕ (UR sig nD τ) ℕ cfg0 c)

theorem rows0_flushed
    (hafter : ∀ t : Fin cfg0.N, dat.after 2 t = k0_pay1 (F := Ideal) (((cfg0.win 0).blk t).view.read (Elt Ideal) (dat.A 0)) (((cfg0.win 1).blk t).view.read (Elt Ideal) (dat.A 1)))
    (t : Fin cfg0.N) :
    dat.flushed 2 t = ((cfg0.win 2).blk t).view.read (Elt Ideal)
      (Host.dotGeneral (F := Ideal) (φ₁ := .f32) (φ₂ := .f32) Cert.ReferenceIdeal.dot_S100000x128_S128x128_S100000x128_1_0_0_1_n_n none (dat.A 0) (dat.A 1)) := by
  show (cfg0.win 2).cut (grid0.coords t) (dat.after 2 t) = _
  rw [hafter t]
  obtain ⟨e0, e1, e2, e3, e4, e5⟩ := rows0_index t
  funext j
  show k0_pay1 (F := Ideal) _ _ j = _
  refine (congrFun (stored0_eq _ _) j).trans ?_
  refine tile_of_whole (dat.A 0) (dat.A 1) _ _ (fun y => ((cfg0.win 0).blk t).view.emb y) (fun y => ((cfg0.win 1).blk t).view.emb y)
    (fun y => ((cfg0.win 2).blk t).view.emb y) (fun _ => rfl) (fun _ => rfl) ?_ ?_ j
  · intro j k; funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · intro j k; funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

theorem rows0_eq
    (hafter : ∀ t : Fin cfg0.N, dat.after 2 t = k0_pay1 (F := Ideal) (((cfg0.win 0).blk t).view.read (Elt Ideal) (dat.A 0)) (((cfg0.win 1).blk t).view.read (Elt Ideal) (dat.A 1))) :
    dat.arrAt 2 cfg0.N = Host.dotGeneral (F := Ideal) (φ₁ := .f32) (φ₂ := .f32) Cert.ReferenceIdeal.dot_S100000x128_S128x128_S100000x128_1_0_0_1_n_n none (dat.A 0) (dat.A 1) :=
  dat.arrAt_eq_of_cover 2 _ (fun t _ => rows0_flushed dat hafter t) rows0_cover

end

theorem rows1_index : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

theorem rows1_onto : ∀ q : Fin 10, ∃ t : Fin cfg1.N, win1_2.index t = ![q.val, 0] :=
  (by decide +kernel : ∀ q : Fin 10, ∃ t : Fin grid1.N, win1_2.index t = ![q.val, 0])

theorem rows1_mem (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

theorem rows1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := rows1_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [rows1_mem]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

section
variable {c : Dev nD} (dat : Pipeline.Dat τ (Elt Ideal) Unit ℕ (UR sig nD τ) ℕ cfg1 c)

theorem rows1_flushed
    (hafter : ∀ t : Fin cfg1.N, dat.after 2 t = k1_pay1 (F := Ideal) (((cfg1.win 0).blk t).view.read (Elt Ideal) (dat.A 0)) (((cfg1.win 1).blk t).view.read (Elt Ideal) (dat.A 1)))
    (t : Fin cfg1.N) :
    dat.flushed 2 t = ((cfg1.win 2).blk t).view.read (Elt Ideal)
      (Host.dotGeneral (F := Ideal) (φ₁ := .f32) (φ₂ := .f32) Cert.ReferenceIdeal.dot_S100000x128_S128x128_S100000x128_1_0_0_1_n_n none (dat.A 0) (dat.A 1)) := by
  show (cfg1.win 2).cut (grid1.coords t) (dat.after 2 t) = _
  rw [hafter t]
  obtain ⟨e0, e1, e2, e3, e4, e5⟩ := rows1_index t
  funext j
  show k1_pay1 (F := Ideal) _ _ j = _
  refine (congrFun (stored1_eq _ _) j).trans ?_
  refine tile_of_whole (dat.A 0) (dat.A 1) _ _ (fun y => ((cfg1.win 0).blk t).view.emb y) (fun y => ((cfg1.win 1).blk t).view.emb y)
    (fun y => ((cfg1.win 2).blk t).view.emb y) (fun _ => rfl) (fun _ => rfl) ?_ ?_ j
  · intro j k; funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · intro j k; funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

theorem rows1_eq
    (hafter : ∀ t : Fin cfg1.N, dat.after 2 t = k1_pay1 (F := Ideal) (((cfg1.win 0).blk t).view.read (Elt Ideal) (dat.A 0)) (((cfg1.win 1).blk t).view.read (Elt Ideal) (dat.A 1))) :
    dat.arrAt 2 cfg1.N = Host.dotGeneral (F := Ideal) (φ₁ := .f32) (φ₂ := .f32) Cert.ReferenceIdeal.dot_S100000x128_S128x128_S100000x128_1_0_0_1_n_n none (dat.A 0) (dat.A 1) :=
  dat.arrAt_eq_of_cover 2 _ (fun t _ => rows1_flushed dat hafter t) rows1_cover

end

end Cert.Val

end
-- ==== Proof.Val.HostChain.lean ====
import proofs.«428478_j66365834658323_2_alg».proof.Proof.Gen.KernelIdeal.Launch
import proofs.«428478_j66365834658323_2_alg».proof.Proof.RefRead
import Idealize.ShloMosaic.Lib.ValueIdx
import Idealize.ShloMosaic.PureOps.Ideal.Laws
import Idealize.ShloMosaic.Lib.StableHlo.Run

set_option maxRecDepth 16384

noncomputable section

namespace Cert.Val

open Idealize.ShloMosaic Idealize.ShloMosaic.TcCoe Idealize.SL.Sem
open Idealize.ShloMosaic.StableHlo (after)
open Cert.KernelIdeal Cert.KernelIdeal.Gen
open Cert.ReferenceIdeal.ReadP

local notation "𝕎" => Valuation Cert.KernelIdeal.τ Cert.KernelIdeal.sig (Elt Ideal)

local notation "⟪" r "⟫" => (Proc.devRef (τ := Cert.KernelIdeal.τ) Proc.tc r)

theorem host0_v5 (W : 𝕎) :
    after (hostOps0 (F := Ideal)) W ⟪main_v5⟫ = val_main_v6 (F := Ideal) (W ⟪main_arg1⟫) := by
  after_results_simp
  rfl

theorem host0_v6 (W : 𝕎) :
    after (hostOps0 (F := Ideal)) W ⟪main_v6⟫ = val_main_v7 (F := Ideal) (W ⟪main_arg1⟫) := by
  after_results_simp
  rfl

theorem host0_v26 (W : 𝕎) :
    after (hostOps0 (F := Ideal)) W ⟪main_v26⟫ = val_main_v27 (F := Ideal) (W ⟪main_arg1⟫) := by
  after_results_simp
  rfl

theorem host0_v29 (W : 𝕎) :
    (after (hostOps0 (F := Ideal)) W ⟪main_v29⟫ : S100000x128.Idx → EReal) = (W ⟪main_arg0⟫ : S100000x128.Idx → EReal) := by
  after_results_simp
  rfl

theorem host0_v27 (W : 𝕎) :
    (after (hostOps0 (F := Ideal)) W ⟪main_v27⟫ : S128x128.Idx → EReal) = (W ⟪main_arg4⟫ : S128x128.Idx → EReal) := by
  after_results_simp
  rfl

theorem host0_v28 (W : 𝕎) :
    (after (hostOps0 (F := Ideal)) W ⟪main_v28⟫ : S128x128.Idx → EReal) = (W ⟪main_arg6⟫ : S128x128.Idx → EReal) := by
  after_results_simp
  rfl

theorem truncf_ideal {s : Shape} {φ ψ : FTy} (a : FVec Ideal s φ) (h : ψ.bits < φ.bits) :
    (truncf ψ a h : s.Idx → EReal) = (a : s.Idx → EReal) := rfl

theorem host1_v46 (W : 𝕎) (a0) (a1)
    (a4) (a5)
    (h5 : W ⟪main_v5⟫ = val_main_v6 (F := Ideal) a1) (h6 : W ⟪main_v6⟫ = val_main_v7 (F := Ideal) a1)
    (h26 : W ⟪main_v26⟫ = val_main_v27 (F := Ideal) a1) (h30 : W ⟪main_v30⟫ = val_main_v4 (F := Ideal) a0 a4)
    (harg5 : W ⟪main_arg5⟫ = a5) :
    after (hostOps1 (F := Ideal)) W ⟪main_v46⟫ = val_main_v43 (F := Ideal) a0 a1 a4 a5 := by
  after_results_simp
  rw [h5, h6, h26, h30, harg5]
  rfl

theorem host1_1_v47 (V : 𝕎) :
    after (hostOps1_1 (F := Ideal)) V ⟪main_v47⟫
      = maximumf (V ⟪main_v46⟫ : (⟨S100000x128, .f32⟩ : BufTy).Contents (Elt Ideal))
          (broadcastInDim S100000x128 ![] bcast_S_S100000x128 (constant (F := Ideal) S_ .f32 0x00000000#32)) := by
  after_results_simp
  rfl

theorem host1_2_v48 (V : 𝕎) :
    (after (hostOps1_2 (F := Ideal)) V ⟪main_v48⟫ : S100000x128.Idx → EReal) = (V ⟪main_v47⟫ : S100000x128.Idx → EReal) := by
  after_results_simp
  rfl

theorem host1_v48 (W : 𝕎) (a0) (a1)
    (a4) (a5)
    (h5 : W ⟪main_v5⟫ = val_main_v6 (F := Ideal) a1) (h6 : W ⟪main_v6⟫ = val_main_v7 (F := Ideal) a1)
    (h26 : W ⟪main_v26⟫ = val_main_v27 (F := Ideal) a1) (h30 : W ⟪main_v30⟫ = val_main_v4 (F := Ideal) a0 a4)
    (harg5 : W ⟪main_arg5⟫ = a5) :
    (after (hostOps1_2 (F := Ideal)) (after (hostOps1_1 (F := Ideal)) (after (hostOps1 (F := Ideal)) W)) ⟪main_v48⟫
        : S100000x128.Idx → EReal)
      = (val_main_v44 (F := Ideal) a0 a1 a4 a5 : S100000x128.Idx → EReal) := by
  rw [host1_2_v48, host1_1_v47, host1_v46 W a0 a1 a4 a5 h5 h6 h26 h30 harg5]
  rfl

theorem host2_v66 (W : 𝕎) (a0) (a1)
    (a4) (a5) (a6) (a7)
    (h5 : W ⟪main_v5⟫ = val_main_v6 (F := Ideal) a1) (h6 : W ⟪main_v6⟫ = val_main_v7 (F := Ideal) a1)
    (h26 : W ⟪main_v26⟫ = val_main_v27 (F := Ideal) a1)
    (h49 : W ⟪main_v49⟫ = val_main_v45 (F := Ideal) a0 a1 a4 a5 a6) (harg7 : W ⟪main_arg7⟫ = a7) :
    after (hostOps2 (F := Ideal)) W ⟪main_v66⟫ = val_main_v85 (F := Ideal) a0 a1 a4 a5 a6 a7 := by
  have h5' : W ⟪main_v5⟫ = val_main_v47 (F := Ideal) a1 := h5
  have h6' : W ⟪main_v6⟫ = val_main_v48 (F := Ideal) a1 := h6
  have h26' : W ⟪main_v26⟫ = val_main_v68 (F := Ideal) a1 := h26
  after_results_simp
  rw [h5', h6', h26', h49, harg7]
  rfl

theorem host2_v72 (W : 𝕎) (a2) (harg2 : W ⟪main_arg2⟫ = a2) :
    after (hostOps2 (F := Ideal)) W ⟪main_v72⟫ = val_main_v97 (F := Ideal) a2 := by
  after_results_simp
  rw [harg2]
  rfl

theorem host2_v73 (W : 𝕎) (a0) (a1)
    (a4) (a5) (a6) (a7)
    (h5 : W ⟪main_v5⟫ = val_main_v6 (F := Ideal) a1) (h6 : W ⟪main_v6⟫ = val_main_v7 (F := Ideal) a1)
    (h26 : W ⟪main_v26⟫ = val_main_v27 (F := Ideal) a1)
    (h49 : W ⟪main_v49⟫ = val_main_v45 (F := Ideal) a0 a1 a4 a5 a6) (harg7 : W ⟪main_arg7⟫ = a7) :
    (after (hostOps2 (F := Ideal)) W ⟪main_v73⟫ : S100000x128.Idx → EReal)
      = (val_main_v84 (F := Ideal) a0 a1 a4 a5 a6 a7 : S100000x128.Idx → EReal) := by
  have h5' : W ⟪main_v5⟫ = val_main_v47 (F := Ideal) a1 := h5
  have h6' : W ⟪main_v6⟫ = val_main_v48 (F := Ideal) a1 := h6
  have h26' : W ⟪main_v26⟫ = val_main_v68 (F := Ideal) a1 := h26
  after_results_simp
  rw [h5', h6', h26', h49, harg7]
  refine (truncf_ideal (s := S100000x128) (φ := .f32) (ψ := .bf16) _ bitsLt_bf16_f32).trans ?_
  rfl

theorem host2_c12 (W : 𝕎) :
    after (hostOps2 (F := Ideal)) W ⟪main_c_12⟫ = (constantI S_ 32 0#32 : (⟨S_, .i32⟩ : BufTy).Contents (Elt Ideal)) := by
  after_results_simp

theorem host2_1_v74 (V : 𝕎) :
    after (hostOps2_1 (F := Ideal)) V ⟪main_v74⟫
      = pad S100352x128 ![0, 0] ![352, 0] ![0, 0] (V ⟪main_v73⟫ : (⟨S100000x128, .bf16⟩ : BufTy).Contents (Elt Ideal))
          (sitofp (F := Ideal) .bf16 (V ⟪main_c_12⟫ : (⟨S_, .i32⟩ : BufTy).Contents (Elt Ideal)))
          pads_S100000x128_S100352x128_03520_000 h_S_ := by
  after_results_simp
  rfl

theorem host2_tail_keeps (V : 𝕎) :
    after (hostOps2_4 (F := Ideal)) (after (hostOps2_3 (F := Ideal)) (after (hostOps2_2 (F := Ideal)) V)) ⟪main_v74⟫ = V ⟪main_v74⟫
    ∧ after (hostOps2_4 (F := Ideal)) (after (hostOps2_3 (F := Ideal)) (after (hostOps2_2 (F := Ideal)) V)) ⟪main_v66⟫ = V ⟪main_v66⟫
    ∧ after (hostOps2_4 (F := Ideal)) (after (hostOps2_3 (F := Ideal)) (after (hostOps2_2 (F := Ideal)) V)) ⟪main_v72⟫ = V ⟪main_v72⟫ := by
  refine ⟨?_, ?_, ?_⟩ <;> after_results_simp

theorem host2_1_keeps (V : 𝕎) :
    after (hostOps2_1 (F := Ideal)) V ⟪main_v66⟫ = V ⟪main_v66⟫
    ∧ after (hostOps2_1 (F := Ideal)) V ⟪main_v72⟫ = V ⟪main_v72⟫
    ∧ after (hostOps2_1 (F := Ideal)) V ⟪main_arg2⟫ = V ⟪main_arg2⟫ := by
  refine ⟨?_, ?_, ?_⟩ <;> after_results_simp

theorem host2_tail_v76 (V : 𝕎) :
    after (hostOps2_4 (F := Ideal)) (after (hostOps2_3 (F := Ideal)) (after (hostOps2_2 (F := Ideal)) V)) ⟪main_v76⟫
      = shapeCast S1x100352
          (pad S100352 ![0] ![352] ![0] (V ⟪main_arg2⟫ : (⟨S100000, .i32⟩ : BufTy).Contents (Elt Ideal))
            (constantI S_ 32 4294967295#32 : (⟨S_, .i32⟩ : BufTy).Contents (Elt Ideal)) pads_S100000_S100352_03520 h_S_)
          shapeCasts_S100352_S1x100352 := by
  after_results_simp
  rfl

theorem host2_keeps_arg2 (W : 𝕎) : after (hostOps2 (F := Ideal)) W ⟪main_arg2⟫ = W ⟪main_arg2⟫ := by
  after_results_simp

theorem host2_final_v66 (W : 𝕎) (a0) (a1)
    (a4) (a5) (a6) (a7)
    (h5 : W ⟪main_v5⟫ = val_main_v6 (F := Ideal) a1) (h6 : W ⟪main_v6⟫ = val_main_v7 (F := Ideal) a1)
    (h26 : W ⟪main_v26⟫ = val_main_v27 (F := Ideal) a1)
    (h49 : W ⟪main_v49⟫ = val_main_v45 (F := Ideal) a0 a1 a4 a5 a6) (harg7 : W ⟪main_arg7⟫ = a7) :
    after (hostOps2_4 (F := Ideal)) (after (hostOps2_3 (F := Ideal)) (after (hostOps2_2 (F := Ideal)) (after (hostOps2_1 (F := Ideal)) (after (hostOps2 (F := Ideal)) W)))) ⟪main_v66⟫ = val_main_v85 (F := Ideal) a0 a1 a4 a5 a6 a7 :=
  (host2_tail_keeps _).2.1.trans ((host2_1_keeps _).1.trans (host2_v66 W a0 a1 a4 a5 a6 a7 h5 h6 h26 h49 harg7))

theorem host2_final_v72 (W : 𝕎) (a2) (harg2 : W ⟪main_arg2⟫ = a2) :
    after (hostOps2_4 (F := Ideal)) (after (hostOps2_3 (F := Ideal)) (after (hostOps2_2 (F := Ideal)) (after (hostOps2_1 (F := Ideal)) (after (hostOps2 (F := Ideal)) W)))) ⟪main_v72⟫ = val_main_v97 (F := Ideal) a2 :=
  (host2_tail_keeps _).2.2.trans ((host2_1_keeps _).2.1.trans (host2_v72 W a2 harg2))

theorem host2_final_v74 (W : 𝕎) (a0) (a1)
    (a4) (a5) (a6) (a7)
    (h5 : W ⟪main_v5⟫ = val_main_v6 (F := Ideal) a1) (h6 : W ⟪main_v6⟫ = val_main_v7 (F := Ideal) a1)
    (h26 : W ⟪main_v26⟫ = val_main_v27 (F := Ideal) a1)
    (h49 : W ⟪main_v49⟫ = val_main_v45 (F := Ideal) a0 a1 a4 a5 a6) (harg7 : W ⟪main_arg7⟫ = a7) :
    (after (hostOps2_4 (F := Ideal)) (after (hostOps2_3 (F := Ideal)) (after (hostOps2_2 (F := Ideal)) (after (hostOps2_1 (F := Ideal)) (after (hostOps2 (F := Ideal)) W)))) ⟪main_v74⟫ : S100352x128.Idx → EReal)
      = pad S100352x128 ![0, 0] ![352, 0] ![0, 0] (val_main_v84 (F := Ideal) a0 a1 a4 a5 a6 a7 : S100000x128.Idx → EReal)
          (sitofp (F := Ideal) .bf16 (constantI S_ 32 0#32) : S_.Idx → EReal)
          pads_S100000x128_S100352x128_03520_000 h_S_ := by
  rw [(host2_tail_keeps _).1, host2_1_v74, host2_c12, host2_v73 W a0 a1 a4 a5 a6 a7 h5 h6 h26 h49 harg7]

theorem host2_final_v76 (W : 𝕎) (a2) (harg2 : W ⟪main_arg2⟫ = a2) :
    after (hostOps2_4 (F := Ideal)) (after (hostOps2_3 (F := Ideal)) (after (hostOps2_2 (F := Ideal)) (after (hostOps2_1 (F := Ideal)) (after (hostOps2 (F := Ideal)) W)))) ⟪main_v76⟫
      = shapeCast S1x100352
          (pad S100352 ![0] ![352] ![0] (a2 : (⟨S100000, .i32⟩ : BufTy).Contents (Elt Ideal))
            (constantI S_ 32 4294967295#32 : (⟨S_, .i32⟩ : BufTy).Contents (Elt Ideal)) pads_S100000_S100352_03520 h_S_)
          shapeCasts_S100352_S1x100352 := by
  rw [host2_tail_v76, (host2_1_keeps _).2.2, host2_keeps_arg2, harg2]

end Cert.Val

end
-- ==== Proof.Val.HostChainB.lean ====
import proofs.«428478_j66365834658323_2_alg».proof.Proof.Gen.KernelIdeal.Launch
import proofs.«428478_j66365834658323_2_alg».proof.Proof.RefRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.Val

open Idealize.ShloMosaic Idealize.ShloMosaic.TcCoe Idealize.SL.Sem

open Cert.KernelIdeal (main_v66 main_v72 main_v77 main_arg3 main_arg9 main_arg11 main_arg13 main_arg15 main_v85 main_v86 main_v87
  main_v88 main_v89 main_v90_0 main_v90_1 main_v103 main_v114)
open Cert.KernelIdeal.Gen (hostOps3 hostOps4)
open Cert.ReferenceIdeal.ReadP (val_main_v85 val_main_v94 val_main_v97 val_main_v98 val_main_v99 val_main_v100 val_main_v101
  val_main_v102 val_main_v103 val_main_v104 val_main_v105 val_main_v107 val_main_v112 val_main_v117 val_main_v122
  val_main_v119 val_main_v120 val_main_v124 val_main_v125 val_main_v126 val_main_v127 val_main_v128 val_main_v129
  val_main_v130 val_main_v131 val_main_v132 val_main_v133 val_main_v134 val_main_v135 val_main_v136 val_main_v137
  val_main_v138 val_main_v139 val_main_v140 val_main_v141 val_main_v142 val_main_v143 val_main_v144 val_main_v145
  val_main_v146 val_main_v147 val_main_cst_19 val_main_cst_20 val_main_cst_21 val_main_cst_22 val_main_cst_23
  val_main_cst_24 val_main_cst_25)
open Cert.ReferenceIdeal (S100000x128 S2x1000000 S100000 S64x100 S128x128 S128 S356x128 S128x200 S200 S128x4000 S4000
  S1x128 S1x200 S1x4000)

theorem reshape_row_eq_broadcast {α : Type} {n : Nat} (hn : n ≠ 1) (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hc = broadcastInDim ⟨2, ![1, n]⟩ (![1] : Fin 1 → Fin 2) hb x := by
  funext j
  have h0 : (j 0).val < 1 := (j 0).isLt

  let k : (⟨1, ![n]⟩ : Shape).Idx := fun a => match a with | ⟨0, _⟩ => ⟨(j 1).val, (j 1).isLt⟩
  rw [shapeCast_apply x hc j k (by
      rw [Shape.rowMajor_val_one, Shape.rowMajor_val_two]
      show (j 1).val = (j 0).val * n + (j 1).val
      have hj0 : (j 0).val = 0 := by omega
      rw [hj0, Nat.zero_mul, Nat.zero_add]),
    broadcastInDim_apply (![1] : Fin 1 → Fin 2) hb x j k (fun a => match a with
      | ⟨0, _⟩ => by show (j 1).val = if n = 1 then 0 else (j 1).val; rw [if_neg hn])]

section
variable (W : Valuation Cert.KernelIdeal.τ Cert.KernelIdeal.sig (Elt Ideal))
variable (a0 : (⟨S100000x128, .f32⟩ : BufTy).Contents (Elt Ideal)) (a1 : (⟨S2x1000000, .i32⟩ : BufTy).Contents (Elt Ideal))
  (a2 : (⟨S100000, .i32⟩ : BufTy).Contents (Elt Ideal)) (a3 : (⟨S64x100, .i32⟩ : BufTy).Contents (Elt Ideal))
  (a4 : (⟨S128x128, .f32⟩ : BufTy).Contents (Elt Ideal)) (a5 : (⟨S128, .f32⟩ : BufTy).Contents (Elt Ideal))
  (a6 : (⟨S128x128, .f32⟩ : BufTy).Contents (Elt Ideal)) (a7 : (⟨S128, .f32⟩ : BufTy).Contents (Elt Ideal))
  (a8 : (⟨S356x128, .f32⟩ : BufTy).Contents (Elt Ideal)) (a9 : (⟨S128, .f32⟩ : BufTy).Contents (Elt Ideal))
  (a10 : (⟨S128x128, .f32⟩ : BufTy).Contents (Elt Ideal)) (a11 : (⟨S128, .f32⟩ : BufTy).Contents (Elt Ideal))
  (a12 : (⟨S128x200, .f32⟩ : BufTy).Contents (Elt Ideal)) (a13 : (⟨S200, .f32⟩ : BufTy).Contents (Elt Ideal))
  (a14 : (⟨S128x4000, .f32⟩ : BufTy).Contents (Elt Ideal)) (a15 : (⟨S4000, .f32⟩ : BufTy).Contents (Elt Ideal))

theorem hostOps3_embedding
    (h66 : W (Proc.devRef .tc main_v66) = val_main_v85 (F := Ideal) a0 a1 a4 a5 a6 a7)
    (h72 : W (Proc.devRef .tc main_v72) = val_main_v97 (F := Ideal) a2)
    (h77 : W (Proc.devRef .tc main_v77) = val_main_v94 (F := Ideal) a0 a1 a2 a4 a5 a6 a7)
    (h3 : W (Proc.devRef .tc main_arg3) = a3) :
    StableHlo.after hostOps3 W (Proc.devRef .tc main_v85) = val_main_v105 (F := Ideal) a0 a1 a2 a3 a4 a5 a6 a7 := by
  after_results
  rw [h66, h72, h77, h3]
  unfold val_main_v105 val_main_v104 val_main_v103 val_main_v102 val_main_v101 val_main_v100 val_main_v99 val_main_v98
    val_main_cst_19
  rfl

theorem row_v107 : shapeCast S1x128 a9 Cert.KernelIdeal.Gen.shapeCasts_S128_S1x128 = val_main_v107 (F := Ideal) a9 :=
  reshape_row_eq_broadcast (n := 128) (by decide) a9 _ _

theorem row_v112 : shapeCast S1x128 a11 Cert.KernelIdeal.Gen.shapeCasts_S128_S1x128 = val_main_v112 (F := Ideal) a11 :=
  reshape_row_eq_broadcast (n := 128) (by decide) a11 _ _

theorem row_v117 : shapeCast S1x200 a13 Cert.KernelIdeal.Gen.shapeCasts_S200_S1x200 = val_main_v117 (F := Ideal) a13 :=
  reshape_row_eq_broadcast (n := 200) (by decide) a13 _ _

theorem row_v122 : shapeCast S1x4000 a15 Cert.KernelIdeal.Gen.shapeCasts_S4000_S1x4000 = val_main_v122 (F := Ideal) a15 :=
  reshape_row_eq_broadcast (n := 4000) (by decide) a15 _ _

theorem hostOps3_bias1 (h9 : W (Proc.devRef .tc main_arg9) = a9) :
    StableHlo.after hostOps3 W (Proc.devRef .tc main_v86) = val_main_v107 (F := Ideal) a9 := by
  after_results
  rw [h9]
  exact row_v107 a9
theorem hostOps3_bias2 (h11 : W (Proc.devRef .tc main_arg11) = a11) :
    StableHlo.after hostOps3 W (Proc.devRef .tc main_v87) = val_main_v112 (F := Ideal) a11 := by
  after_results
  rw [h11]
  exact row_v112 a11
theorem hostOps3_bias3 (h13 : W (Proc.devRef .tc main_arg13) = a13) :
    StableHlo.after hostOps3 W (Proc.devRef .tc main_v88) = val_main_v117 (F := Ideal) a13 := by
  after_results
  rw [h13]
  exact row_v117 a13
theorem hostOps3_bias4 (h15 : W (Proc.devRef .tc main_arg15) = a15) :
    StableHlo.after hostOps3 W (Proc.devRef .tc main_v89) = val_main_v122 (F := Ideal) a15 := by
  after_results
  rw [h15]
  exact row_v122 a15

theorem hostOps4_softmax1
    (h0 : W (Proc.devRef .tc main_v90_0) = val_main_v119 (F := Ideal) a0 a1 a2 a3 a4 a5 a6 a7 a8 a9 a10 a11 a12 a13) :
    StableHlo.after hostOps4 W (Proc.devRef .tc main_v103) = val_main_v136 (F := Ideal) a0 a1 a2 a3 a4 a5 a6 a7 a8 a9 a10 a11 a12 a13 := by
  after_results
  rw [h0]
  unfold val_main_v136 val_main_v135 val_main_v134 val_main_v133 val_main_v132 val_main_v131 val_main_v130 val_main_v129
    val_main_v128 val_main_v127 val_main_v126 val_main_v120 val_main_cst_20 val_main_cst_21 val_main_cst_22
  generalize val_main_v119 (F := Ideal) a0 a1 a2 a3 a4 a5 a6 a7 a8 a9 a10 a11 a12 a13 = y
  rfl

theorem hostOps4_softmax2
    (h1 : W (Proc.devRef .tc main_v90_1) = val_main_v124 (F := Ideal) a0 a1 a2 a3 a4 a5 a6 a7 a8 a9 a10 a11 a14 a15) :
    StableHlo.after hostOps4 W (Proc.devRef .tc main_v114) = val_main_v147 (F := Ideal) a0 a1 a2 a3 a4 a5 a6 a7 a8 a9 a10 a11 a14 a15 := by
  after_results
  rw [h1]
  unfold val_main_v147 val_main_v146 val_main_v145 val_main_v144 val_main_v143 val_main_v142 val_main_v141 val_main_v140
    val_main_v139 val_main_v138 val_main_v137 val_main_v125 val_main_cst_23 val_main_cst_24 val_main_cst_25
  generalize val_main_v124 (F := Ideal) a0 a1 a2 a3 a4 a5 a6 a7 a8 a9 a10 a11 a14 a15 = y
  rfl

end

end Cert.Val

end
-- ==== Proof.Val.PoolSum.lean ====
import proofs.«428478_j66365834658323_2_alg».proof.KernelIdeal
import Idealize.ShloMosaic.Lib.ValueIdx
import Idealize.ShloMosaic.PureOps.Ideal

noncomputable section

namespace Cert.Val

open Idealize.ShloMosaic Idealize.ShloMosaic.ValueIdx
open scoped BigOperators

-- Row g of the pooled sum adds the rows whose id is g and positive.
def poolSum (ids : Cert.KernelIdeal.S1x100352.Idx → BitVec 32) (h : Cert.KernelIdeal.S100352x128.Idx → EReal) :
    Cert.KernelIdeal.S64x128.Idx → EReal :=
  fun i => ∑ n : Fin 100352,
    (if (ids (ix2 (0 : Fin 1) n)).toInt = ((i 0).val : Int) ∧ 0 < (ids (ix2 (0 : Fin 1) n)).toInt then (1 : EReal) else 0)
      * h (ix2 n ⟨(i 1).val, idx2_lt1 i⟩)

end Cert.Val

end
-- ==== Proof.Val.PoolArr.lean ====
import proofs.«428478_j66365834658323_2_alg».proof.Proof.KI.Reg2
import proofs.«428478_j66365834658323_2_alg».proof.Proof.Val.PoolSum
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.Val

open Idealize.ShloMosaic Idealize.ShloMosaic.TcCoe Idealize.SL.Sem
open Idealize.ShloMosaic.ValueIdx
open scoped BigOperators
open Cert.KernelIdeal Cert.KernelIdeal.Gen
open Idealize.ShloMosaic.Pipeline (Dat Cfg Window)

namespace PoolArr

theorem maskWord_toInt (a : BitVec 32) (r : ℕ) (hr : r < 2 ^ 31) :
    ((IntOp.andi (IntOp.cmpi .eq a (BitVec.ofNat 32 r)) (IntOp.cmpi .sgt a 0#32)).setWidth 32).toInt
      = if a.toInt = (r : Int) ∧ 0 < a.toInt then 1 else 0 := by
  have h1 : IntOp.cmpi .eq a (BitVec.ofNat 32 r) = if a.toInt = (r : Int) then 1#1 else 0#1 := by
    by_cases h : a.toInt = (r : Int)
    · rw [if_pos h]
      refine StableHlo.Predicate.cmpi_eq_iff.mpr (BitVec.eq_of_toInt_eq ?_)
      rw [h, StableHlo.Predicate.toInt_ofNat_small r hr]
    · rw [if_neg h]
      refine eq_zero_of_ne_one fun h1 => h ?_
      rw [StableHlo.Predicate.cmpi_eq_iff.mp h1, StableHlo.Predicate.toInt_ofNat_small r hr]
  have h2 : IntOp.cmpi .sgt a 0#32 = if 0 < a.toInt then 1#1 else 0#1 := by
    unfold IntOp.cmpi
    show BitVec.ofBool ((0#32).slt a) = _
    rw [BitVec.slt]
    by_cases h : 0 < a.toInt
    · rw [if_pos h]; simp [h]
    · rw [if_neg h]; simp [h]
  rw [h1, h2]
  by_cases ha : a.toInt = (r : Int)
  · by_cases hb : 0 < a.toInt
    · rw [if_pos ha, if_pos hb, if_pos ⟨ha, hb⟩]; decide
    · rw [if_pos ha, if_neg hb, if_neg fun h => hb h.2]; decide
  · by_cases hb : 0 < a.toInt
    · rw [if_neg ha, if_pos hb, if_neg fun h => ha h.1]; decide
    · rw [if_neg ha, if_neg hb, if_neg fun h => ha h.1]; decide

theorem reset_apply (j : S64x128.Idx) : k2_pay1 (F := Ideal) j = 0 := by
  unfold k2_pay1
  rw [shapeCast_self]
  exact Ideal.ofBits_zero_f32

theorem dot_lhs_0 (i : S64x128.Idx) (q : dot_S64x12544_S12544x128_S64x128_1_0_0_1_n_n.contr.Idx) :
    (dot_S64x12544_S12544x128_S64x128_1_0_0_1_n_n.lhsIdx i q 0).val = (i 0).val := by
  unfold DotDims.lhsIdx
  rw [dif_neg (show ¬(0 : Fin S64x12544.rank) ∈ dot_S64x12544_S12544x128_S64x128_1_0_0_1_n_n.lhsBatch by decide), dif_pos (show (0 : Fin S64x12544.rank) ∈ dot_S64x12544_S12544x128_S64x128_1_0_0_1_n_n.lhsNonContracting by decide)]
  rfl
theorem dot_lhs_1 (i : S64x128.Idx) (q : dot_S64x12544_S12544x128_S64x128_1_0_0_1_n_n.contr.Idx) :
    (dot_S64x12544_S12544x128_S64x128_1_0_0_1_n_n.lhsIdx i q 1).val = (q ⟨0, by decide⟩).val :=
  dot_S64x12544_S12544x128_S64x128_1_0_0_1_n_n.lhsIdx_val_of_single rfl i q

theorem dot_rhs_0 (i : S64x128.Idx) (q : dot_S64x12544_S12544x128_S64x128_1_0_0_1_n_n.contr.Idx) :
    (dot_S64x12544_S12544x128_S64x128_1_0_0_1_n_n.rhsIdx i q 0).val = (q ⟨0, by decide⟩).val :=
  dot_S64x12544_S12544x128_S64x128_1_0_0_1_n_n.rhsIdx_val_of_single rfl i q
theorem dot_rhs_1 (i : S64x128.Idx) (q : dot_S64x12544_S12544x128_S64x128_1_0_0_1_n_n.contr.Idx) :
    (dot_S64x12544_S12544x128_S64x128_1_0_0_1_n_n.rhsIdx i q 1).val = (i 1).val := by
  unfold DotDims.rhsIdx
  rw [dif_neg (show ¬(1 : Fin S12544x128.rank) ∈ dot_S64x12544_S12544x128_S64x128_1_0_0_1_n_n.rhsBatch by decide), dif_pos (show (1 : Fin S12544x128.rank) ∈ dot_S64x12544_S12544x128_S64x128_1_0_0_1_n_n.rhsNonContracting by decide)]
  rfl

theorem idRows_apply (v : IVec S1x12544 32) (r : Fin 64) (k : Fin 12544) :
    broadcastTo S64x12544 v Facts₀.broadcasts_S1x12544_S64x12544 (ix2 r k) = v (ix2 (0 : Fin 1) k) :=
  broadcastTo_apply v _ (ix2 r k) (ix2 (0 : Fin 1) k) fun a => by
    match a with
    | ⟨0, _⟩ => rfl
    | ⟨1, _⟩ => rfl

theorem rowIota_apply (r : Fin 64) (k : Fin 12544) :
    iota .tc S64x12544 32 [0] Facts₀.iota_S64x12544_d0_w32 (ix2 r k) = BitVec.ofNat 32 r.val :=
  iota_single_apply .tc S64x12544 32 0 _ (ix2 r k)

theorem step_apply (v3 : Vec Ideal S1x12544 .i32) (v15 : Vec Ideal S64x128 .f32) (v16 : Vec Ideal S12544x128 .bf16)
    (i : S64x128.Idx) :
    k2_pay2 (F := Ideal) v3 v15 v16 i
      = v15 i + ∑ k : Fin 12544,
          (if (v3 (ix2 (0 : Fin 1) k)).toInt = ((i 0).val : Int) ∧ 0 < (v3 (ix2 (0 : Fin 1) k)).toInt then (1 : EReal) else 0)
            * v16 (ix2 k ⟨(i 1).val, idx2_lt1 i⟩) := by
  unfold k2_pay2
  simp only [shapeCast_self]
  rw [addf_apply]
  congr 1
  simp only [matmul]
  rw [Ideal.matmul_constant_zero_apply, ← Equiv.sum_comp (contrEquiv1 dot_S64x12544_S12544x128_S64x128_1_0_0_1_n_n 12544 rfl rfl).symm]
  refine Finset.sum_congr rfl fun k _ => ?_
  have hk := contrEquiv1_symm_val dot_S64x12544_S12544x128_S64x128_1_0_0_1_n_n 12544 rfl rfl k
  have el : dot_S64x12544_S12544x128_S64x128_1_0_0_1_n_n.lhsIdx i ((contrEquiv1 dot_S64x12544_S12544x128_S64x128_1_0_0_1_n_n 12544 rfl rfl).symm k)
      = ix2 (⟨(i 0).val, idx2_lt0 i⟩ : Fin 64) k := funext fun a => Fin.ext (by
    match a with
    | ⟨0, _⟩ => exact dot_lhs_0 _ _
    | ⟨1, _⟩ => exact (dot_lhs_1 _ _).trans hk)
  have er : dot_S64x12544_S12544x128_S64x128_1_0_0_1_n_n.rhsIdx i ((contrEquiv1 dot_S64x12544_S12544x128_S64x128_1_0_0_1_n_n 12544 rfl rfl).symm k)
      = ix2 k (⟨(i 1).val, idx2_lt1 i⟩ : Fin 128) := funext fun a => Fin.ext (by
    match a with
    | ⟨0, _⟩ => exact (dot_rhs_0 _ _).trans hk
    | ⟨1, _⟩ => exact dot_rhs_1 _ _)
  rw [el, er]
  congr 1
  show (((BitVec.setWidth 32 (IntOp.andi
      (IntOp.cmpi .eq (broadcastTo S64x12544 v3 Facts₀.broadcasts_S1x12544_S64x12544 (ix2 (⟨(i 0).val, idx2_lt0 i⟩ : Fin 64) k))
        (iota .tc S64x12544 32 [0] Facts₀.iota_S64x12544_d0_w32 (ix2 (⟨(i 0).val, idx2_lt0 i⟩ : Fin 64) k)))
      (IntOp.cmpi .sgt (broadcastTo S64x12544 v3 Facts₀.broadcasts_S1x12544_S64x12544 (ix2 (⟨(i 0).val, idx2_lt0 i⟩ : Fin 64) k)) 0#32))).toInt : ℝ) : EReal) = _
  rw [idRows_apply, rowIota_apply, maskWord_toInt _ _ (by have := idx2_lt0 i; show (i 0).val < 2 ^ 31; omega)]
  split_ifs <;> simp

variable (V : (c : Dev nD) → (b : Ref sig .tc) → Buf (Elt Ideal) ((c : Thread nD τ).loc b))

theorem index_facts : ∀ t : Fin cfg2.N, win2_0.index t (0 : Fin 2) = 0 ∧ win2_0.index t (1 : Fin 2) = t.val
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

def term (ids : S1x100352.Idx → BitVec 32) (h : S100352x128.Idx → EReal) (i : S64x128.Idx) (n : Fin 100352) : EReal :=
  (if (ids (ix2 (0 : Fin 1) n)).toInt = ((i 0).val : Int) ∧ 0 < (ids (ix2 (0 : Fin 1) n)).toInt then (1 : EReal) else 0)
    * h (ix2 n ⟨(i 1).val, idx2_lt1 i⟩)

theorem ids_blk (c : Dev nD) (t : Fin cfg2.N) (k : Fin 12544) (hk : k.val + 12544 * t.val < 100352) :
    Hand.iblk2 V c 0 t (ix2 (0 : Fin 1) k) = V c main_v76 (ix2 (0 : Fin 1) ⟨k.val + 12544 * t.val, hk⟩) := by
  obtain ⟨e0, e1, -⟩ := index_facts t
  show V c main_v76 (((cfg2.win 0).blk t).view.emb (ix2 (0 : Fin 1) k)) = _
  congr 1
  funext a; apply Fin.ext
  match a with
  | ⟨0, _⟩ => show win2_0.index t (0 : Fin 2) * 1 + 1 * 0 = 0; omega
  | ⟨1, _⟩ => show win2_0.index t (1 : Fin 2) * 12544 + 1 * k.val = k.val + 12544 * t.val; omega

theorem rows_blk (c : Dev nD) (t : Fin cfg2.N) (k : Fin 12544) (q : Fin 128) (hk : k.val + 12544 * t.val < 100352) :
    Hand.iblk2 V c 1 t (ix2 k q) = V c main_v74 (ix2 ⟨k.val + 12544 * t.val, hk⟩ q) := by
  obtain ⟨-, -, e2, e3, -⟩ := index_facts t
  show V c main_v74 (((cfg2.win 1).blk t).view.emb (ix2 k q)) = _
  congr 1
  funext a; apply Fin.ext
  match a with
  | ⟨0, _⟩ => show win2_1.index t (0 : Fin 2) * 12544 + 1 * k.val = k.val + 12544 * t.val; omega
  | ⟨1, _⟩ => show win2_1.index t (1 : Fin 2) * 128 + 1 * q.val = q.val; omega

def blockSum (ids : S1x100352.Idx → BitVec 32) (h : S100352x128.Idx → EReal) (i : S64x128.Idx) (t : ℕ) (ht : t < 8) : EReal :=
  ∑ k : Fin 12544, term ids h i ⟨k.val + 12544 * t, by omega⟩

theorem step_blockSum (c : Dev nD) (i : S64x128.Idx) (t : Fin cfg2.N) (ht : t.val < 8) :
    (∑ k : Fin 12544,
        (if (Hand.iblk2 V c 0 t (ix2 (0 : Fin 1) k)).toInt = ((i 0).val : Int) ∧ 0 < (Hand.iblk2 V c 0 t (ix2 (0 : Fin 1) k)).toInt then (1 : EReal) else 0)
          * Hand.iblk2 V c 1 t (ix2 k ⟨(i 1).val, idx2_lt1 i⟩))
      = blockSum (V c main_v76) (V c main_v74) i t.val ht := by
  unfold blockSum
  refine Finset.sum_congr rfl fun k _ => ?_
  have hk : k.val + 12544 * t.val < 100352 := by have := k.isLt; omega
  rw [ids_blk V c t k hk, rows_blk V c t k _ hk]
  rfl

theorem acc_apply (c : Dev nD) (i : S64x128.Idx) (t : Fin cfg2.N) (ht : t.val < 8) (s : Vec Ideal S64x128 .f32) :
    Hand.acc2 (Hand.iblk2 V c 0 t) s (Hand.iblk2 V c 1 t) i = s i + blockSum (V c main_v76) (V c main_v74) i t.val ht :=
  (congrFun (Hand.acc2_eq _ _ _) i).trans ((step_apply _ _ _ i).trans (congrArg (s i + ·) (step_blockSum V c i t ht)))

def partialSum (ids : S1x100352.Idx → BitVec 32) (h : S100352x128.Idx → EReal) (i : S64x128.Idx) (n : ℕ) (hn : n < 8) : EReal :=
  ∑ t : Fin (n + 1), blockSum ids h i t.val (by have := t.isLt; omega)

theorem partialSum_zero (ids : S1x100352.Idx → BitVec 32) (h : S100352x128.Idx → EReal) (i : S64x128.Idx) (hn : 0 < 8) :
    partialSum ids h i 0 hn = blockSum ids h i 0 hn := by
  unfold partialSum; rw [Fin.sum_univ_one]; rfl

theorem partialSum_succ (ids : S1x100352.Idx → BitVec 32) (h : S100352x128.Idx → EReal) (i : S64x128.Idx) (n : ℕ) (hn : n + 1 < 8) :
    partialSum ids h i (n + 1) hn = partialSum ids h i n (Nat.lt_of_succ_lt hn) + blockSum ids h i (n + 1) hn := by
  unfold partialSum; rw [Fin.sum_univ_castSucc]; rfl

theorem sc2_apply (c : Dev nD) (i : S64x128.Idx) (n : ℕ) (hn : n < cfg2.N) (h8 : n < 8) :
    Hand.sc2 V c n hn i = partialSum (V c main_v76) (V c main_v74) i n h8 := by
  induction n with
  | zero =>
    rw [partialSum_zero]
    refine (congrFun (Hand.sc2_zero V c hn) i).trans ((acc_apply V c i ⟨0, hn⟩ h8 _).trans ?_)
    rw [Hand.zero2_eq, reset_apply, zero_add]
  | succ n ih =>
    rw [partialSum_succ]
    refine (congrFun (Hand.sc2_succ V c n hn) i).trans ((acc_apply V c i ⟨n + 1, hn⟩ h8 _).trans ?_)
    rw [ih (Nat.lt_of_succ_lt hn) (Nat.lt_of_succ_lt h8)]

theorem sum_blocks (ids : S1x100352.Idx → BitVec 32) (h : S100352x128.Idx → EReal) (i : S64x128.Idx) :
    partialSum ids h i 7 (by decide) = ∑ n : Fin 100352, term ids h i n := by
  unfold partialSum blockSum
  rw [← Fintype.sum_prod_type' (f := fun (t : Fin 8) (k : Fin 12544) => term ids h i ⟨k.val + 12544 * t.val, by have := k.isLt; have := t.isLt; omega⟩)]
  exact Fintype.sum_equiv (finProdFinEquiv (m := 8) (n := 12544)) _ _ fun p => rfl

theorem read_outBlk (t : Fin cfg2.N) (G : S64x128.Idx → EReal) (j : S64x128.Idx) :
    ((cfg2.win 2).blk t).view.read (Elt Ideal) G j = G j := by
  obtain ⟨-, -, -, -, e4, e5⟩ := index_facts t
  show G (((cfg2.win 2).blk t).view.emb j) = G j
  congr 1
  funext a; apply Fin.ext
  match a with
  | ⟨0, _⟩ => show win2_2.index t (0 : Fin 2) * 64 + 1 * (j 0).val = (j 0).val; omega
  | ⟨1, _⟩ => show win2_2.index t (1 : Fin 2) * 128 + 1 * (j 1).val = (j 1).val; omega

theorem mem_outBlk (t : Fin cfg2.N) (i : S64x128.Idx) :
    i ∈ ((cfg2.win 2).blk t).view.set ↔ ∀ a : Fin 2, win2_2.index t a * S64x128.size a ≤ (i a).val ∧ (i a).val < win2_2.index t a * S64x128.size a + S64x128.size a := by
  show i ∈ ((View.whole main_v77).slice (win2_2.rect t)).set ↔ _
  rw [View.set_slice_whole, Rect.mem_set_unit]
  exact Iff.rfl

theorem last_eq (V : (c : Dev nD) → (b : Ref sig .tc) → Buf (Elt Ideal) ((c : Thread nD τ).loc b)) (c : Dev nD)
    (t : Fin cfg2.N) (ht : t.val = 7) (j : S64x128.Idx) :
    Hand.sc2 V c t.val t.isLt j = poolSum (V c main_v76) (V c main_v74) j := by
  obtain ⟨n, hn⟩ := t
  subst ht
  rw [sc2_apply V c j 7 hn (by decide), sum_blocks]
  rfl

end PoolArr

theorem pool_eq (V : (c : Dev nD) → (b : Ref sig .tc) → Buf (Elt Ideal) ((c : Thread nD τ).loc b)) (c : Dev nD) :
    (Hand.dat2 (F := Ideal) V c).arrAt 2 cfg2.N = poolSum (V c main_v76) (V c main_v74) := by
  have h7 : (7 : ℕ) < cfg2.N := by rw [show cfg2.N = 8 from N_2]; decide
  refine (Hand.dat2 (F := Ideal) V c).arrAt_eq_of_cover 2 (poolSum (V c main_v76) (V c main_v74)) (fun t hf => ?_) (fun i => ?_)
  · have ht : t.val = 7 := by
      have h := (flush2_2 t).mp hf; have hN : t.val < 8 := lt_of_lt_of_eq t.isLt N_2; omega
    funext j
    rw [PoolArr.read_outBlk]
    show (cfg2.win 2).cut (grid2.coords t) ((Hand.dat2 (F := Ideal) V c).after 2 t) j = _
    rw [Hand.after2_2]
    exact PoolArr.last_eq V c t ht j
  · refine ⟨⟨7, h7⟩, (flush2_2 _).mpr rfl, ?_⟩
    rw [PoolArr.mem_outBlk]
    obtain ⟨-, -, -, -, e4, e5⟩ := PoolArr.index_facts ⟨7, h7⟩
    intro a
    match a with
    | ⟨0, _⟩ => show win2_2.index ⟨7, h7⟩ (0 : Fin 2) * 64 ≤ (i 0).val ∧ (i 0).val < win2_2.index ⟨7, h7⟩ (0 : Fin 2) * 64 + 64; have := idx2_lt0 i; omega
    | ⟨1, _⟩ => show win2_2.index ⟨7, h7⟩ (1 : Fin 2) * 128 ≤ (i 1).val ∧ (i 1).val < win2_2.index ⟨7, h7⟩ (1 : Fin 2) * 128 + 128; have := idx2_lt1 i; omega

end Cert.Val

end
-- ==== Proof.Val.Pool.lean ====
import proofs.«428478_j66365834658323_2_alg».proof.Proof.Val.PoolSum
import proofs.«428478_j66365834658323_2_alg».proof.Proof.Gen.KernelIdeal
import proofs.«428478_j66365834658323_2_alg».proof.Proof.RefRead
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Predicate
import Idealize.ShloMosaic.PureOps.Ideal.Laws

set_option maxRecDepth 16384

noncomputable section

namespace Cert.Val

open Idealize.ShloMosaic Idealize.ShloMosaic.TcCoe Idealize.SL.Sem
open Idealize.ShloMosaic.ValueIdx
open scoped BigOperators

theorem sgtZero_word (a : BitVec 32) : IntOp.cmpi .sgt a 0#32 = if 0 < a.toInt then 1#1 else 0#1 := by
  unfold IntOp.cmpi
  show BitVec.ofBool ((0#32).slt a) = _
  rw [BitVec.slt]
  by_cases h : 0 < a.toInt
  · rw [if_pos h]; simp [h]
  · rw [if_neg h]; simp [h]

theorem poolScatter_start_0 (j : Cert.ReferenceIdeal.S100000x128.Idx) (idx : IVec Cert.ReferenceIdeal.S100000x1 32) :
    Cert.ReferenceIdeal.scatter_S64x128_S100000x1_S100000x128_1_0_0_1.start j idx 0
      = (idx (ix2 (⟨(j 0).val, idx2_lt0 j⟩ : Fin 100000) (0 : Fin 1))).toInt := by
  unfold ScatterDims.start
  rw [dif_pos (show (0 : Fin Cert.ReferenceIdeal.S64x128.rank) ∈ Cert.ReferenceIdeal.scatter_S64x128_S100000x1_S100000x128_1_0_0_1.scatterDimsToOperandDims by decide)]
  have hsi : Cert.ReferenceIdeal.scatter_S64x128_S100000x1_S100000x128_1_0_0_1.siIdx j
      ⟨List.idxOf (0 : Fin Cert.ReferenceIdeal.S64x128.rank) Cert.ReferenceIdeal.scatter_S64x128_S100000x1_S100000x128_1_0_0_1.scatterDimsToOperandDims,
        List.idxOf_lt_length_iff.2 (by decide)⟩ = ix2 (⟨(j 0).val, idx2_lt0 j⟩ : Fin 100000) (0 : Fin 1) := by
    funext b; refine Fin.ext ?_
    match b with
    | ⟨0, _⟩ => rfl
    | ⟨1, _⟩ => rfl
  rw [hsi]

theorem poolScatter_start_1 (j : Cert.ReferenceIdeal.S100000x128.Idx) (idx : IVec Cert.ReferenceIdeal.S100000x1 32) :
    Cert.ReferenceIdeal.scatter_S64x128_S100000x1_S100000x128_1_0_0_1.start j idx 1 = 0 := by
  unfold ScatterDims.start
  rw [dif_neg (show ¬(1 : Fin Cert.ReferenceIdeal.S64x128.rank) ∈ Cert.ReferenceIdeal.scatter_S64x128_S100000x1_S100000x128_1_0_0_1.scatterDimsToOperandDims by decide)]

theorem poolScatter_window_0 (j : Cert.ReferenceIdeal.S100000x128.Idx) :
    Cert.ReferenceIdeal.scatter_S64x128_S100000x1_S100000x128_1_0_0_1.window j 0 = 0 := by
  unfold ScatterDims.window
  rw [dif_neg (show ¬(0 : Fin Cert.ReferenceIdeal.S64x128.rank) ∈ Cert.ReferenceIdeal.scatter_S64x128_S100000x1_S100000x128_1_0_0_1.sKept by decide)]
theorem poolScatter_window_1 (j : Cert.ReferenceIdeal.S100000x128.Idx) :
    Cert.ReferenceIdeal.scatter_S64x128_S100000x1_S100000x128_1_0_0_1.window j 1 = (j 1).val := by
  unfold ScatterDims.window
  rw [dif_pos (show (1 : Fin Cert.ReferenceIdeal.S64x128.rank) ∈ Cert.ReferenceIdeal.scatter_S64x128_S100000x1_S100000x128_1_0_0_1.sKept by decide)]
  rfl

theorem poolScatter_lands_iff (j : Cert.ReferenceIdeal.S100000x128.Idx) (idx : IVec Cert.ReferenceIdeal.S100000x1 32)
    (i : Cert.ReferenceIdeal.S64x128.Idx) :
    Cert.ReferenceIdeal.scatter_S64x128_S100000x1_S100000x128_1_0_0_1.resultIdx? j idx = some i
      ↔ (idx (ix2 (⟨(j 0).val, idx2_lt0 j⟩ : Fin 100000) (0 : Fin 1))).toInt = ((i 0).val : Int) ∧ (j 1).val = (i 1).val := by
  have hi0 : (i 0).val < 64 := idx2_lt0 i
  have hi1 : (i 1).val < 128 := idx2_lt1 i
  have hj1 : (j 1).val < 128 := idx2_lt1 j
  have s0 := poolScatter_start_0 j idx
  have s1 := poolScatter_start_1 j idx
  have w0 := poolScatter_window_0 j
  have w1 := poolScatter_window_1 j
  unfold ScatterDims.resultIdx?
  constructor
  · intro h
    split at h
    · rename_i hin
      have e := Option.some.inj h
      have e0 : (Cert.ReferenceIdeal.scatter_S64x128_S100000x1_S100000x128_1_0_0_1.start j idx 0 + Cert.ReferenceIdeal.scatter_S64x128_S100000x1_S100000x128_1_0_0_1.window j 0).toNat = (i 0).val :=
        congrArg Fin.val (congrFun e 0)
      have e1 : (Cert.ReferenceIdeal.scatter_S64x128_S100000x1_S100000x128_1_0_0_1.start j idx 1 + Cert.ReferenceIdeal.scatter_S64x128_S100000x1_S100000x128_1_0_0_1.window j 1).toNat = (i 1).val :=
        congrArg Fin.val (congrFun e 1)
      have p0 := (hin 0).1
      rw [s0, w0] at e0 p0
      rw [s1, w1] at e1
      constructor <;> omega
    · exact absurd h (by simp)
  · rintro ⟨h0, h1⟩
    have hin : ∀ a, 0 ≤ Cert.ReferenceIdeal.scatter_S64x128_S100000x1_S100000x128_1_0_0_1.start j idx a + Cert.ReferenceIdeal.scatter_S64x128_S100000x1_S100000x128_1_0_0_1.window j a
        ∧ Cert.ReferenceIdeal.scatter_S64x128_S100000x1_S100000x128_1_0_0_1.start j idx a + Cert.ReferenceIdeal.scatter_S64x128_S100000x1_S100000x128_1_0_0_1.window j a < Cert.ReferenceIdeal.S64x128.size a := fun a => by
      match a with
      | ⟨0, _⟩ => show 0 ≤ Cert.ReferenceIdeal.scatter_S64x128_S100000x1_S100000x128_1_0_0_1.start j idx 0 + Cert.ReferenceIdeal.scatter_S64x128_S100000x1_S100000x128_1_0_0_1.window j 0 ∧ Cert.ReferenceIdeal.scatter_S64x128_S100000x1_S100000x128_1_0_0_1.start j idx 0 + Cert.ReferenceIdeal.scatter_S64x128_S100000x1_S100000x128_1_0_0_1.window j 0 < ((64 : ℕ) : Int)
                  rw [s0, w0]; omega
      | ⟨1, _⟩ => show 0 ≤ Cert.ReferenceIdeal.scatter_S64x128_S100000x1_S100000x128_1_0_0_1.start j idx 1 + Cert.ReferenceIdeal.scatter_S64x128_S100000x1_S100000x128_1_0_0_1.window j 1 ∧ Cert.ReferenceIdeal.scatter_S64x128_S100000x1_S100000x128_1_0_0_1.start j idx 1 + Cert.ReferenceIdeal.scatter_S64x128_S100000x1_S100000x128_1_0_0_1.window j 1 < ((128 : ℕ) : Int)
                  rw [s1, w1]; omega
    rw [dif_pos hin]
    refine congrArg some (funext fun a => Fin.ext ?_)
    match a with
    | ⟨0, _⟩ => show (Cert.ReferenceIdeal.scatter_S64x128_S100000x1_S100000x128_1_0_0_1.start j idx 0 + Cert.ReferenceIdeal.scatter_S64x128_S100000x1_S100000x128_1_0_0_1.window j 0).toNat = (i 0).val
                rw [s0, w0]; omega
    | ⟨1, _⟩ => show (Cert.ReferenceIdeal.scatter_S64x128_S100000x1_S100000x128_1_0_0_1.start j idx 1 + Cert.ReferenceIdeal.scatter_S64x128_S100000x1_S100000x128_1_0_0_1.window j 1).toNat = (i 1).val
                rw [s1, w1]; omega

theorem hostScatterAdd_apply_of_iff {s si su : Shape} (d : ScatterDims s si su) {w : Nat} (x : s.Idx → EReal)
    (idx : IVec si w) (upd : su.Idx → EReal) (i : s.Idx) (P : su.Idx → Prop) [DecidablePred P]
    (hP : ∀ j, d.resultIdx? j idx = some i ↔ P j) :
    Ideal.hostScatterAdd d x idx upd i = x i + ∑ j, if P j then upd j else 0 := by
  unfold Ideal.hostScatterAdd
  rw [Finset.filter_congr (fun j _ => hP j), Finset.sum_filter]

theorem poolScatter_apply (x : Cert.ReferenceIdeal.S64x128.Idx → EReal) (idx : IVec Cert.ReferenceIdeal.S100000x1 32)
    (upd : Cert.ReferenceIdeal.S100000x128.Idx → EReal) (i : Cert.ReferenceIdeal.S64x128.Idx) :
    Host.scatterAdd (F := Ideal) (φ := .f32) Cert.ReferenceIdeal.scatter_S64x128_S100000x1_S100000x128_1_0_0_1 x idx upd i
      = x i + ∑ n : Fin 100000, if (idx (ix2 n (0 : Fin 1))).toInt = ((i 0).val : Int) then upd (ix2 n (⟨(i 1).val, idx2_lt1 i⟩ : Fin 128)) else 0 := by
  simp only [Host.scatterAdd, Ideal.hostScatterAdd_def]
  rw [hostScatterAdd_apply_of_iff _ x idx upd i _ (fun j => poolScatter_lands_iff j idx i), sum_idx2]
  refine congrArg (x i + ·) (Finset.sum_congr rfl fun n _ => ?_)
  show (∑ b : Fin 128, if (idx (ix2 n (0 : Fin 1))).toInt = ((i 0).val : Int) ∧ b.val = (i 1).val then upd (ix2 n b) else 0) = _
  by_cases h : (idx (ix2 n (0 : Fin 1))).toInt = ((i 0).val : Int)
  · rw [if_pos h, Finset.sum_eq_single (⟨(i 1).val, idx2_lt1 i⟩ : Fin 128)]
    · rw [if_pos ⟨h, rfl⟩]
    · intro b _ hb
      rw [if_neg]
      rintro ⟨_, e⟩
      exact hb (Fin.ext e)
    · intro hn; exact absurd (Finset.mem_univ _) hn
  · rw [if_neg h]
    exact Finset.sum_eq_zero fun b _ => if_neg fun hh => h hh.1

theorem padIds_inside (ids0 : Cert.KernelIdeal.S100000.Idx → BitVec 32) (n : Fin 100352) (hn : n.val < 100000) :
    shapeCast Cert.KernelIdeal.S1x100352
        (pad Cert.KernelIdeal.S100352 ![0] ![352] ![0] ids0 (constantI Cert.KernelIdeal.S_ 32 4294967295#32)
          Cert.KernelIdeal.Facts₀.pads_S100000_S100352_03520 Cert.KernelIdeal.Facts₀.h_S_)
        Cert.KernelIdeal.Facts₀.shapeCasts_S100352_S1x100352 (ix2 (0 : Fin 1) n)
      = ids0 (ix1 (⟨n.val, hn⟩ : Fin 100000)) := by
  refine (shapeCast_apply _ _ (ix2 (0 : Fin 1) n) (ix1 n) ?_).trans ?_
  · rw [Shape.rowMajor_val_one, Shape.rowMajor_val_two]
    show n.val = 0 * 100352 + n.val
    omega
  · exact pad_apply_of_inside _ _ _ ids0 _ _ _ (ix1 n) (ix1 (⟨n.val, hn⟩ : Fin 100000)) fun a => by
      match a with
      | ⟨0, _⟩ => show n.val = 0 + n.val * (0 + 1); omega

theorem padFeat_inside (hfull : Cert.KernelIdeal.S100000x128.Idx → EReal) (v : Cert.KernelIdeal.S_.Idx → EReal)
    (n : Fin 100352) (hn : n.val < 100000) (c : Fin 128) :
    pad Cert.KernelIdeal.S100352x128 ![0, 0] ![352, 0] ![0, 0] hfull v
        Cert.KernelIdeal.Facts₀.pads_S100000x128_S100352x128_03520_000 Cert.KernelIdeal.Facts₀.h_S_ (ix2 n c)
      = hfull (ix2 (⟨n.val, hn⟩ : Fin 100000) c) :=
  pad_apply_of_inside _ _ _ hfull _ _ _ (ix2 n c) (ix2 (⟨n.val, hn⟩ : Fin 100000) c) fun a => by
    match a with
    | ⟨0, _⟩ => show n.val = 0 + n.val * (0 + 1); omega
    | ⟨1, _⟩ => show c.val = 0 + c.val * (0 + 1); omega

theorem padFeat_outside (hfull : Cert.KernelIdeal.S100000x128.Idx → EReal) (v : Cert.KernelIdeal.S_.Idx → EReal)
    (n : Fin 100352) (hn : ¬n.val < 100000) (c : Fin 128) :
    pad Cert.KernelIdeal.S100352x128 ![0, 0] ![352, 0] ![0, 0] hfull v
        Cert.KernelIdeal.Facts₀.pads_S100000x128_S100352x128_03520_000 Cert.KernelIdeal.Facts₀.h_S_ (ix2 n c)
      = v (Shape.Idx.first Cert.KernelIdeal.Facts₀.h_S_) :=
  pad_apply_of_not_inside _ _ _ hfull _ _ _ (ix2 n c) 0 fun h => by
    have h2 : (n.val - 0) / (0 + 1) < 100000 := h.2.2
    rw [Nat.sub_zero, Nat.div_one] at h2
    exact hn h2

theorem nodeWeight_apply (ids0 : Cert.ReferenceIdeal.S100000.Idx → BitVec 32) (m : Fin 100000) (c : Fin 128) :
    broadcastInDim Cert.ReferenceIdeal.S100000x128 ![0, 1] Cert.ReferenceIdeal.Facts₀.bcast_S100000x1_S100000x128_0_1
        (broadcastInDim Cert.ReferenceIdeal.S100000x1 ![0] Cert.ReferenceIdeal.Facts₀.bcast_S100000_S100000x1_0
          (uitofp (F := Ideal) .f32 (cmpi .sgt ids0
            (broadcastInDim Cert.ReferenceIdeal.S100000 ![] Cert.ReferenceIdeal.Facts₀.bcast_S_S100000
              (constantI Cert.ReferenceIdeal.S_ 32 0#32))))) (ix2 m c)
      = if 0 < (ids0 (ix1 m)).toInt then (1 : EReal) else 0 := by
  refine (broadcastInDim_apply _ _ _ (ix2 m c) (ix2 m (0 : Fin 1)) fun a => ?_).trans
    ((broadcastInDim_apply _ _ _ (ix2 m (0 : Fin 1)) (ix1 m) fun a => ?_).trans ?_)
  · match a with
    | ⟨0, _⟩ => rfl
    | ⟨1, _⟩ => rfl
  · match a with
    | ⟨0, _⟩ => rfl
  · show (((IntOp.cmpi .sgt (ids0 (ix1 m)) 0#32).toNat : ℝ) : EReal) = _
    rw [sgtZero_word]
    split_ifs <;> simp

theorem idColumn_apply (ids0 : Cert.ReferenceIdeal.S100000.Idx → BitVec 32) (m : Fin 100000) :
    broadcastInDim Cert.ReferenceIdeal.S100000x1 ![0] Cert.ReferenceIdeal.Facts₀.bcast_S100000_S100000x1_0 ids0 (ix2 m (0 : Fin 1))
      = ids0 (ix1 m) :=
  broadcastInDim_apply _ _ _ (ix2 m (0 : Fin 1)) (ix1 m) fun a => by
    match a with
    | ⟨0, _⟩ => rfl

theorem pool_law (ids0 : Cert.ReferenceIdeal.S100000.Idx → BitVec 32) (hfull : FVec Ideal Cert.ReferenceIdeal.S100000x128 .f32) :
    poolSum
        (shapeCast Cert.KernelIdeal.S1x100352
          (pad (s := Cert.KernelIdeal.S100000) Cert.KernelIdeal.S100352 ![0] ![352] ![0] ids0 (constantI Cert.KernelIdeal.S_ 32 4294967295#32)
            Cert.KernelIdeal.Facts₀.pads_S100000_S100352_03520 Cert.KernelIdeal.Facts₀.h_S_)
          Cert.KernelIdeal.Facts₀.shapeCasts_S100352_S1x100352)
        (pad (s := Cert.KernelIdeal.S100000x128) Cert.KernelIdeal.S100352x128 ![0, 0] ![352, 0] ![0, 0] (hfull : FVec Ideal Cert.KernelIdeal.S100000x128 .bf16)
          (sitofp (F := Ideal) .bf16 (constantI Cert.KernelIdeal.S_ 32 0#32))
          Cert.KernelIdeal.Facts₀.pads_S100000x128_S100352x128_03520_000 Cert.KernelIdeal.Facts₀.h_S_)
      = Host.scatterAdd (F := Ideal) (φ := .f32) Cert.ReferenceIdeal.scatter_S64x128_S100000x1_S100000x128_1_0_0_1
          (broadcastInDim Cert.ReferenceIdeal.S64x128 ![] Cert.ReferenceIdeal.Facts₀.bcast_S_S64x128 (constant (F := Ideal) Cert.ReferenceIdeal.S_ .f32 0x00000000#32))
          (broadcastInDim Cert.ReferenceIdeal.S100000x1 ![0] Cert.ReferenceIdeal.Facts₀.bcast_S100000_S100000x1_0 ids0)
          (mulf hfull
            (broadcastInDim Cert.ReferenceIdeal.S100000x128 ![0, 1] Cert.ReferenceIdeal.Facts₀.bcast_S100000x1_S100000x128_0_1
              (broadcastInDim Cert.ReferenceIdeal.S100000x1 ![0] Cert.ReferenceIdeal.Facts₀.bcast_S100000_S100000x1_0
                (uitofp (F := Ideal) .f32 (cmpi .sgt ids0
                  (broadcastInDim Cert.ReferenceIdeal.S100000 ![] Cert.ReferenceIdeal.Facts₀.bcast_S_S100000
                    (constantI Cert.ReferenceIdeal.S_ 32 0#32))))))) := by
  funext i
  rw [poolScatter_apply]
  have hx : broadcastInDim Cert.ReferenceIdeal.S64x128 ![] Cert.ReferenceIdeal.Facts₀.bcast_S_S64x128
      (constant (F := Ideal) Cert.ReferenceIdeal.S_ .f32 0x00000000#32) i = 0 := Ideal.ofBits_zero_f32
  rw [hx, zero_add]
  unfold poolSum

  let F : ℕ → EReal := fun m => if hm : m < 100000 then
      (if (ids0 (ix1 (⟨m, hm⟩ : Fin 100000))).toInt = ((i 0).val : Int) ∧ 0 < (ids0 (ix1 (⟨m, hm⟩ : Fin 100000))).toInt then (1 : EReal) else 0)
        * hfull (ix2 (⟨m, hm⟩ : Fin 100000) (⟨(i 1).val, idx2_lt1 i⟩ : Fin 128))
    else 0
  have hpadv : sitofp (F := Ideal) .bf16 (constantI Cert.KernelIdeal.S_ 32 0#32) (Shape.Idx.first Cert.KernelIdeal.Facts₀.h_S_) = (0 : EReal) := by
    show (((0#32 : BitVec 32).toInt : ℝ) : EReal) = 0
    simp
  refine Eq.trans (Finset.sum_congr rfl fun n _ => (?_ : _ = F n.val)) (Eq.trans ?_ (Finset.sum_congr rfl fun m _ => (?_ : F m.val = _)))
  · by_cases hn : n.val < 100000
    · rw [padIds_inside ids0 n hn, padFeat_inside _ _ n hn]
      show _ = dite _ _ _
      rw [dif_pos hn]
    · rw [padFeat_outside _ _ n hn, hpadv, mul_zero]
      show _ = dite _ _ _
      rw [dif_neg hn]
  · rw [Fin.sum_univ_eq_sum_range F 100352, Fin.sum_univ_eq_sum_range F 100000]
    refine (Finset.sum_subset (Finset.range_mono (by omega : (100000 : ℕ) ≤ 100352)) fun m _ hm => ?_).symm
    show dite _ _ _ = _
    rw [dif_neg (by simpa using hm)]
  · show dite _ _ _ = _
    rw [dif_pos m.isLt, idColumn_apply, mulf_apply, nodeWeight_apply]
    by_cases hA : (ids0 (ix1 m)).toInt = ((i 0).val : Int) <;> by_cases hB : 0 < (ids0 (ix1 m)).toInt <;> simp [hA, hB]

theorem pool_law_read (ids0 : (⟨Cert.ReferenceIdeal.S100000, .i32⟩ : BufTy).Contents (Elt Ideal))
    (hfull : (⟨Cert.ReferenceIdeal.S100000x128, .f32⟩ : BufTy).Contents (Elt Ideal)) :
    poolSum
        (shapeCast Cert.KernelIdeal.S1x100352
          (pad Cert.KernelIdeal.S100352 ![0] ![352] ![0] (ids0 : (⟨Cert.KernelIdeal.S100000, .i32⟩ : BufTy).Contents (Elt Ideal))
            (constantI Cert.KernelIdeal.S_ 32 4294967295#32 : (⟨Cert.KernelIdeal.S_, .i32⟩ : BufTy).Contents (Elt Ideal))
            Cert.KernelIdeal.Facts₀.pads_S100000_S100352_03520 Cert.KernelIdeal.Facts₀.h_S_)
          Cert.KernelIdeal.Facts₀.shapeCasts_S100352_S1x100352)
        (pad Cert.KernelIdeal.S100352x128 ![0, 0] ![352, 0] ![0, 0] (hfull : Cert.KernelIdeal.S100000x128.Idx → EReal)
          (sitofp (F := Ideal) .bf16 (constantI Cert.KernelIdeal.S_ 32 0#32) : Cert.KernelIdeal.S_.Idx → EReal)
          Cert.KernelIdeal.Facts₀.pads_S100000x128_S100352x128_03520_000 Cert.KernelIdeal.Facts₀.h_S_)
      = Host.scatterAdd (F := Ideal) (φ := .f32) Cert.ReferenceIdeal.scatter_S64x128_S100000x1_S100000x128_1_0_0_1
          (Cert.ReferenceIdeal.ReadP.val_main_v92 (F := Ideal)) (Cert.ReferenceIdeal.ReadP.val_main_v93 (F := Ideal) ids0)
          (mulf (F := Ideal) (φ := .f32) hfull (Cert.ReferenceIdeal.ReadP.val_main_v90 (F := Ideal) ids0)) :=
  pool_law ids0 hfull

end Cert.Val

end
-- ==== Proof.Val.Heads.lean ====
import proofs.«428478_j66365834658323_2_alg».proof.Proof.Gen.KernelIdeal.Launch
import proofs.«428478_j66365834658323_2_alg».proof.Proof.Gen.KernelIdeal.Skeleton
import proofs.«428478_j66365834658323_2_alg».proof.Proof.Gen.KernelIdeal.Points
import proofs.«428478_j66365834658323_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.Val

open Idealize.ShloMosaic Idealize.ShloMosaic.TcCoe Idealize.SL.Sem

open Idealize.ShloMosaic.ValueIdx
open Idealize.ShloMosaic.Pipeline (Dat)

section Spec
open Cert.ReferenceIdeal Cert.ReferenceIdeal.Gen

def hidden (x : Vec Ideal S64x356 .f32) (w1 : Vec Ideal S356x128 .f32) (b1 : Vec Ideal S1x128 .f32)
    (w2 : Vec Ideal S128x128 .f32) (b2 : Vec Ideal S1x128 .f32) : Vec Ideal S64x128 .f32 :=
  maximumf (F := Ideal) (φ := .f32) (addf (F := Ideal) (φ := .f32) (Host.dotGeneral (F := Ideal) (φ₁ := .f32) (φ₂ := .f32) dot_S64x128_S128x128_S64x128_1_0_0_1_n_n none
      (maximumf (F := Ideal) (φ := .f32) (addf (F := Ideal) (φ := .f32) (Host.dotGeneral (F := Ideal) (φ₁ := .f32) (φ₂ := .f32) dot_S64x356_S356x128_S64x128_1_0_0_1_n_n none x w1)
          (broadcastInDim S64x128 ![0, 1] bcast_S1x128_S64x128_0_1 b1))
        (broadcastInDim S64x128 ![] bcast_S_S64x128 (constant (F := Ideal) S_ .f32 0x00000000#32))) w2)
      (broadcastInDim S64x128 ![0, 1] bcast_S1x128_S64x128_0_1 b2))
    (broadcastInDim S64x128 ![] bcast_S_S64x128 (constant (F := Ideal) S_ .f32 0x00000000#32))

def head200 (x : Vec Ideal S64x356 .f32) (w1 : Vec Ideal S356x128 .f32) (b1 : Vec Ideal S1x128 .f32)
    (w2 : Vec Ideal S128x128 .f32) (b2 : Vec Ideal S1x128 .f32) (cw : Vec Ideal S128x200 .f32) (cb : Vec Ideal S1x200 .f32) :
    Vec Ideal S64x200 .f32 :=
  addf (F := Ideal) (φ := .f32) (Host.dotGeneral (F := Ideal) (φ₁ := .f32) (φ₂ := .f32) dot_S64x128_S128x200_S64x200_1_0_0_1_n_n none (hidden x w1 b1 w2 b2) cw)
    (broadcastInDim S64x200 ![0, 1] bcast_S1x200_S64x200_0_1 cb)

def head4000 (x : Vec Ideal S64x356 .f32) (w1 : Vec Ideal S356x128 .f32) (b1 : Vec Ideal S1x128 .f32)
    (w2 : Vec Ideal S128x128 .f32) (b2 : Vec Ideal S1x128 .f32) (rw : Vec Ideal S128x4000 .f32) (rb : Vec Ideal S1x4000 .f32) :
    Vec Ideal S64x4000 .f32 :=
  addf (F := Ideal) (φ := .f32) (Host.dotGeneral (F := Ideal) (φ₁ := .f32) (φ₂ := .f32) dot_S64x128_S128x4000_S64x4000_1_0_0_1_n_n none (hidden x w1 b1 w2 b2) rw)
    (broadcastInDim S64x4000 ![0, 1] bcast_S1x4000_S64x4000_0_1 rb)

end Spec

theorem matmul_zero_eq_dot {sl sr so : Shape} {φ₁ φ₂ ψ₁ ψ₂ : FTy} (d : DotDims sl sr so)
    (x : sl.Idx → EReal) (w : sr.Idx → EReal) :
    matmul (F := Ideal) (φ₁ := φ₁) (φ₂ := φ₂) d none x w (constant (F := Ideal) so .f32 0x00000000#32)
      = Host.dotGeneral (F := Ideal) (φ₁ := ψ₁) (φ₂ := ψ₂) d none x w := by
  funext j
  simp only [Host.dotGeneral]
  rw [Ideal.dotGeneral_apply]
  exact Ideal.matmul_constant_zero_apply d none x w j

theorem row_bias_eq {α : Type} {m n : Nat} (b : (⟨2, ![1, n]⟩ : Shape).Idx → α)
    (hc : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ b hc) hb = broadcastInDim ⟨2, ![m, n]⟩ ![0, 1] hd b := by
  funext i
  rw [shapeCast_self]
  have e1 := broadcastTo_apply b hb i (ix2 (0 : Fin 1) (i 1 : Fin n)) (by
    intro a
    match a with
    | ⟨0, _⟩ => rfl
    | ⟨1, _⟩ =>
      show (i 1).val = if n = 1 then 0 else (i 1).val
      split
      · have e : (i 1).val < n := (i 1).isLt; omega
      · rfl)
  have e2 := broadcastInDim_apply ![0, 1] hd b i (ix2 (0 : Fin 1) (i 1 : Fin n)) (by
    intro a
    match a with
    | ⟨0, _⟩ => rfl
    | ⟨1, _⟩ =>
      show (i 1).val = if n = 1 then 0 else (i 1).val
      split
      · have e : (i 1).val < n := (i 1).isLt; omega
      · rfl)
  exact e1.trans e2.symm

theorem zero_splat_eq {so : Shape} (hs : Cert.ReferenceIdeal.S_.BroadcastsInDim so (![] : Fin 0 → Fin so.rank)) :
    broadcast so (Scalar.ofBits (F := Ideal) .f32 0x00000000#32)
      = broadcastInDim so ![] hs (constant (F := Ideal) Cert.ReferenceIdeal.S_ .f32 0x00000000#32) := by
  funext i
  exact (broadcastInDim_apply ![] hs (constant (F := Ideal) Cert.ReferenceIdeal.S_ .f32 0x00000000#32) i
    (fun a => a.elim0) (fun a => a.elim0)).symm

theorem layer_eq {sl sr : Shape} {m n : Nat} {φ₁ φ₂ : FTy} (d : DotDims sl sr ⟨2, ![m, n]⟩)
    (x : sl.Idx → EReal) (w : sr.Idx → EReal) (b : (⟨2, ![1, n]⟩ : Shape).Idx → EReal)
    (hc : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1])
    (hs : Cert.ReferenceIdeal.S_.BroadcastsInDim ⟨2, ![m, n]⟩ (![] : Fin 0 → Fin 2)) :
    maximumf (F := Ideal) (φ := .f32)
        (addf (matmul (F := Ideal) (φ₁ := φ₁) (φ₂ := φ₂) d none x w (constant (F := Ideal) ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32))
      = maximumf (F := Ideal) (φ := .f32)
        (addf (Host.dotGeneral (F := Ideal) (φ₁ := .f32) (φ₂ := .f32) d none x w) (broadcastInDim ⟨2, ![m, n]⟩ ![0, 1] hd b))
        (broadcastInDim ⟨2, ![m, n]⟩ ![] hs (constant (F := Ideal) Cert.ReferenceIdeal.S_ .f32 0x00000000#32)) := by
  rw [matmul_zero_eq_dot (ψ₁ := .f32) (ψ₂ := .f32), row_bias_eq b hc hb hd, zero_splat_eq hs]

section Payloads
open Cert.KernelIdeal Cert.KernelIdeal.Gen

theorem pay2_eq (x : Vec Ideal S64x356 .f32) (w1 : Vec Ideal S356x128 .f32) (b1 : Vec Ideal S1x128 .f32)
    (w2 : Vec Ideal S128x128 .f32) (b2 : Vec Ideal S1x128 .f32) :
    k3_pay2 (F := Ideal) x w1 b1 w2 b2 = hidden x w1 b1 w2 b2 := by
  have l1 := layer_eq (φ₁ := .bf16) (φ₂ := .bf16) dot_S64x356_S356x128_S64x128_1_0_0_1_n_n x w1 b1
    shapeCasts_S1x128_S1x128 broadcasts_S1x128_S64x128 Cert.ReferenceIdeal.Gen.bcast_S1x128_S64x128_0_1 Cert.ReferenceIdeal.Gen.bcast_S_S64x128
  have l2 := layer_eq (φ₁ := .bf16) (φ₂ := .bf16) dot_S64x128_S128x128_S64x128_1_0_0_1_n_n
    (maximumf (F := Ideal) (φ := .f32)
        (addf (Host.dotGeneral (F := Ideal) (φ₁ := .f32) (φ₂ := .f32) dot_S64x356_S356x128_S64x128_1_0_0_1_n_n none x w1)
          (broadcastInDim S64x128 ![0, 1] Cert.ReferenceIdeal.Gen.bcast_S1x128_S64x128_0_1 b1))
        (broadcastInDim S64x128 ![] Cert.ReferenceIdeal.Gen.bcast_S_S64x128 (constant (F := Ideal) Cert.ReferenceIdeal.S_ .f32 0x00000000#32)))
    w2 b2
    shapeCasts_S1x128_S1x128 broadcasts_S1x128_S64x128 Cert.ReferenceIdeal.Gen.bcast_S1x128_S64x128_0_1 Cert.ReferenceIdeal.Gen.bcast_S_S64x128
  unfold k3_pay2 hidden
  rw [shapeCast_self]
  exact (congrArg (fun h : S64x128.Idx → EReal => maximumf (F := Ideal) (φ := .f32)
        (addf (matmul (F := Ideal) (φ₁ := .bf16) (φ₂ := .bf16) dot_S64x128_S128x128_S64x128_1_0_0_1_n_n none h w2 (constant (F := Ideal) S64x128 .f32 0x00000000#32))
          (broadcastTo S64x128 (shapeCast S1x128 b2 shapeCasts_S1x128_S1x128) broadcasts_S1x128_S64x128))
        (broadcast S64x128 (Scalar.ofBits (F := Ideal) .f32 0x00000000#32))) l1).trans l2

end Payloads

section Blocks
open Cert.KernelIdeal Cert.KernelIdeal.Gen

local macro "block_is_array" X:term : tactic => `(tactic| (
  funext j
  refine congrArg $X (funext fun a => Fin.ext ?_)
  match a with
  | ⟨0, _⟩ => show 0 * _ + 1 * (j 0).val = (j 0).val; omega
  | ⟨1, _⟩ => show 0 * _ + 1 * (j 1).val = (j 1).val; omega))

variable (c : Dev nD) (t : Fin cfg3.N)

theorem read_blk0 (X : Buf (Elt Ideal) ((cfg3.win 0).arr.view.loc (c.tc : Thread nD τ))) :
    ((cfg3.win 0).blk t).view.read (Elt Ideal) X = X := by block_is_array X
theorem read_blk1 (X : Buf (Elt Ideal) ((cfg3.win 1).arr.view.loc (c.tc : Thread nD τ))) :
    ((cfg3.win 1).blk t).view.read (Elt Ideal) X = X := by block_is_array X
theorem read_blk2 (X : Buf (Elt Ideal) ((cfg3.win 2).arr.view.loc (c.tc : Thread nD τ))) :
    ((cfg3.win 2).blk t).view.read (Elt Ideal) X = X := by block_is_array X
theorem read_blk3 (X : Buf (Elt Ideal) ((cfg3.win 3).arr.view.loc (c.tc : Thread nD τ))) :
    ((cfg3.win 3).blk t).view.read (Elt Ideal) X = X := by block_is_array X
theorem read_blk4 (X : Buf (Elt Ideal) ((cfg3.win 4).arr.view.loc (c.tc : Thread nD τ))) :
    ((cfg3.win 4).blk t).view.read (Elt Ideal) X = X := by block_is_array X
theorem read_blk5 (X : Buf (Elt Ideal) ((cfg3.win 5).arr.view.loc (c.tc : Thread nD τ))) :
    ((cfg3.win 5).blk t).view.read (Elt Ideal) X = X := by block_is_array X
theorem read_blk6 (X : Buf (Elt Ideal) ((cfg3.win 6).arr.view.loc (c.tc : Thread nD τ))) :
    ((cfg3.win 6).blk t).view.read (Elt Ideal) X = X := by block_is_array X
theorem read_blk7 (X : Buf (Elt Ideal) ((cfg3.win 7).arr.view.loc (c.tc : Thread nD τ))) :
    ((cfg3.win 7).blk t).view.read (Elt Ideal) X = X := by block_is_array X
theorem read_blk8 (X : Buf (Elt Ideal) ((cfg3.win 8).arr.view.loc (c.tc : Thread nD τ))) :
    ((cfg3.win 8).blk t).view.read (Elt Ideal) X = X := by block_is_array X
theorem read_blk9 (X : Buf (Elt Ideal) ((cfg3.win 9).arr.view.loc (c.tc : Thread nD τ))) :
    ((cfg3.win 9).blk t).view.read (Elt Ideal) X = X := by block_is_array X
theorem read_blk10 (X : Buf (Elt Ideal) ((cfg3.win 10).arr.view.loc (c.tc : Thread nD τ))) :
    ((cfg3.win 10).blk t).view.read (Elt Ideal) X = X := by block_is_array X

theorem mem_blk9 (i : S64x200.Idx) : i ∈ ((cfg3.win 9).blk t).view.set := by
  show i ∈ ((View.whole main_v90_0).slice (win3_9.rect t)).set
  rw [View.set_slice_whole, Rect.mem_set_unit]
  intro a
  match a with
  | ⟨0, _⟩ => show 0 * 64 ≤ (i 0).val ∧ (i 0).val < 0 * 64 + 64; have h : (i 0).val < 64 := (i 0).isLt; omega
  | ⟨1, _⟩ => show 0 * 200 ≤ (i 1).val ∧ (i 1).val < 0 * 200 + 200; have h : (i 1).val < 200 := (i 1).isLt; omega

theorem mem_blk10 (i : S64x4000.Idx) : i ∈ ((cfg3.win 10).blk t).view.set := by
  show i ∈ ((View.whole main_v90_1).slice (win3_10.rect t)).set
  rw [View.set_slice_whole, Rect.mem_set_unit]
  intro a
  match a with
  | ⟨0, _⟩ => show 0 * 64 ≤ (i 0).val ∧ (i 0).val < 0 * 64 + 64; have h : (i 0).val < 64 := (i 0).isLt; omega
  | ⟨1, _⟩ => show 0 * 4000 ≤ (i 1).val ∧ (i 1).val < 0 * 4000 + 4000; have h : (i 1).val < 4000 := (i 1).isLt; omega

end Blocks

section Heads
open Cert.KernelIdeal Cert.KernelIdeal.Gen

theorem pay3_eq (x : Vec Ideal S64x356 .f32) (w1 : Vec Ideal S356x128 .f32) (b1 : Vec Ideal S1x128 .f32)
    (w2 : Vec Ideal S128x128 .f32) (b2 : Vec Ideal S1x128 .f32) (cw : Vec Ideal S128x200 .f32) (cb : Vec Ideal S1x200 .f32) :
    k3_pay3 (F := Ideal) x w1 b1 w2 b2 cw cb = head200 x w1 b1 w2 b2 cw cb := by
  unfold k3_pay3 head200
  rw [pay2_eq]
  exact congrArg₂ (addf (F := Ideal) (φ := .f32))
    (matmul_zero_eq_dot (φ₁ := .bf16) (φ₂ := .bf16) (ψ₁ := .f32) (ψ₂ := .f32)
      dot_S64x128_S128x200_S64x200_1_0_0_1_n_n (hidden x w1 b1 w2 b2) cw)
    (row_bias_eq cb shapeCasts_S1x200_S1x200 broadcasts_S1x200_S64x200 Cert.ReferenceIdeal.Gen.bcast_S1x200_S64x200_0_1)

theorem pay41_eq (x : Vec Ideal S64x356 .f32) (w1 : Vec Ideal S356x128 .f32) (b1 : Vec Ideal S1x128 .f32)
    (w2 : Vec Ideal S128x128 .f32) (b2 : Vec Ideal S1x128 .f32) (rw : Vec Ideal S128x4000 .f32) (rb : Vec Ideal S1x4000 .f32) :
    k3_pay1 (F := Ideal) (k3_pay4 (F := Ideal) x w1 b1 w2 b2 rw) rb = head4000 x w1 b1 w2 b2 rw rb := by
  unfold k3_pay1 k3_pay4 head4000
  rw [pay2_eq]
  exact congrArg₂ (addf (F := Ideal) (φ := .f32))
    (matmul_zero_eq_dot (φ₁ := .bf16) (φ₂ := .bf16) (ψ₁ := .f32) (ψ₂ := .f32)
      dot_S64x128_S128x4000_S64x4000_1_0_0_1_n_n (hidden x w1 b1 w2 b2) rw)
    (row_bias_eq rb shapeCasts_S1x4000_S1x4000 broadcasts_S1x4000_S64x4000 Cert.ReferenceIdeal.Gen.bcast_S1x4000_S64x4000_0_1)

theorem pay3_eq_of {x x' : Vec Ideal S64x356 .f32} {w1 w1' : Vec Ideal S356x128 .f32} {b1 b1' : Vec Ideal S1x128 .f32}
    {w2 w2' : Vec Ideal S128x128 .f32} {b2 b2' : Vec Ideal S1x128 .f32} {cw cw' : Vec Ideal S128x200 .f32}
    {cb cb' : Vec Ideal S1x200 .f32} (hx : x = x') (hw1 : w1 = w1') (hb1 : b1 = b1') (hw2 : w2 = w2') (hb2 : b2 = b2')
    (hcw : cw = cw') (hcb : cb = cb') :
    k3_pay3 (F := Ideal) x w1 b1 w2 b2 cw cb = head200 x' w1' b1' w2' b2' cw' cb' := by
  subst hx hw1 hb1 hw2 hb2 hcw hcb
  exact pay3_eq x w1 b1 w2 b2 cw cb

theorem pay41_eq_of {x x' : Vec Ideal S64x356 .f32} {w1 w1' : Vec Ideal S356x128 .f32} {b1 b1' : Vec Ideal S1x128 .f32}
    {w2 w2' : Vec Ideal S128x128 .f32} {b2 b2' : Vec Ideal S1x128 .f32} {rw rw' : Vec Ideal S128x4000 .f32}
    {rb rb' : Vec Ideal S1x4000 .f32} (hx : x = x') (hw1 : w1 = w1') (hb1 : b1 = b1') (hw2 : w2 = w2') (hb2 : b2 = b2')
    (hrw : rw = rw') (hrb : rb = rb') :
    k3_pay1 (F := Ideal) (k3_pay4 (F := Ideal) x w1 b1 w2 b2 rw) rb = head4000 x' w1' b1' w2' b2' rw' rb' := by
  subst hx hw1 hb1 hw2 hb2 hrw hrb
  exact pay41_eq x w1 b1 w2 b2 rw rb

variable {c : Dev nD} (dat : Dat τ (Elt Ideal) Unit ℕ (UR sig nD τ) ℕ cfg3 c)

theorem head200_eq
    (hafter : ∀ t, dat.after 9 t = k3_pay3 (F := Ideal)
        (((cfg3.win 0).blk t).view.read (Elt Ideal) (dat.A 0))
        (((cfg3.win 1).blk t).view.read (Elt Ideal) (dat.A 1))
        (((cfg3.win 2).blk t).view.read (Elt Ideal) (dat.A 2))
        (((cfg3.win 3).blk t).view.read (Elt Ideal) (dat.A 3))
        (((cfg3.win 4).blk t).view.read (Elt Ideal) (dat.A 4))
        (((cfg3.win 5).blk t).view.read (Elt Ideal) (dat.A 5))
        (((cfg3.win 6).blk t).view.read (Elt Ideal) (dat.A 6))) :
    dat.arrAt 9 cfg3.N = head200 (dat.A 0) (dat.A 1) (dat.A 2) (dat.A 3) (dat.A 4) (dat.A 5) (dat.A 6) := by
  refine dat.arrAt_eq_of_cover 9 _ (fun t _ => ?_) (fun i => ⟨t3_0, flush3_9 _, mem_blk9 _ i⟩)
  show dat.after 9 t = _
  exact (hafter t).trans ((pay3_eq_of (read_blk0 c t (dat.A 0)) (read_blk1 c t (dat.A 1)) (read_blk2 c t (dat.A 2))
    (read_blk3 c t (dat.A 3)) (read_blk4 c t (dat.A 4)) (read_blk5 c t (dat.A 5)) (read_blk6 c t (dat.A 6))).trans
    (read_blk9 c t _).symm)

theorem head4000_eq
    (hafter : ∀ t, dat.after 10 t
      = k3_pay1 (F := Ideal) (k3_pay4 (F := Ideal)
        (((cfg3.win 0).blk t).view.read (Elt Ideal) (dat.A 0))
        (((cfg3.win 1).blk t).view.read (Elt Ideal) (dat.A 1))
        (((cfg3.win 2).blk t).view.read (Elt Ideal) (dat.A 2))
        (((cfg3.win 3).blk t).view.read (Elt Ideal) (dat.A 3))
        (((cfg3.win 4).blk t).view.read (Elt Ideal) (dat.A 4))
        (((cfg3.win 7).blk t).view.read (Elt Ideal) (dat.A 7)))
        (((cfg3.win 8).blk t).view.read (Elt Ideal) (dat.A 8))) :
    dat.arrAt 10 cfg3.N = head4000 (dat.A 0) (dat.A 1) (dat.A 2) (dat.A 3) (dat.A 4) (dat.A 7) (dat.A 8) := by
  refine dat.arrAt_eq_of_cover 10 _ (fun t _ => ?_) (fun i => ⟨t3_0, flush3_10 _, mem_blk10 _ i⟩)
  show dat.after 10 t = _
  exact (hafter t).trans ((pay41_eq_of (read_blk0 c t (dat.A 0)) (read_blk1 c t (dat.A 1)) (read_blk2 c t (dat.A 2))
    (read_blk3 c t (dat.A 3)) (read_blk4 c t (dat.A 4)) (read_blk7 c t (dat.A 7)) (read_blk8 c t (dat.A 8))).trans
    (read_blk10 c t _).symm)

end Heads

end Cert.Val

end
-- ==== Proof.Val.HeadsRef.lean ====
import proofs.«428478_j66365834658323_2_alg».proof.Proof.Val.Heads
import proofs.«428478_j66365834658323_2_alg».proof.Proof.RefRead

set_option maxRecDepth 16384

noncomputable section

namespace Cert.Val

open Idealize.ShloMosaic Idealize.ShloMosaic.TcCoe Idealize.SL.Sem

section Reference
open Cert.ReferenceIdeal Cert.ReferenceIdeal.ReadP

theorem v115_eq (x0 : (⟨S100000x128, .f32⟩ : BufTy).Contents (Elt Ideal)) (x1 : (⟨S2x1000000, .i32⟩ : BufTy).Contents (Elt Ideal)) (x2 : (⟨S100000, .i32⟩ : BufTy).Contents (Elt Ideal)) (x3 : (⟨S64x100, .i32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (x8 : (⟨S356x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v115 (F := Ideal) x0 x1 x2 x3 x4 x5 x6 x7 x8 x9 x10 x11
      = hidden (val_main_v105 (F := Ideal) x0 x1 x2 x3 x4 x5 x6 x7) x8 (val_main_v107 (F := Ideal) x9) x10
          (val_main_v112 (F := Ideal) x11) := by
  unfold val_main_v115 val_main_v114 val_main_v113 val_main_v111 val_main_v110 val_main_v109 val_main_v108 val_main_v106
  unfold val_main_call1_v0 val_main_call2_v0 val_main_call1_cst val_main_call2_cst hidden
  rfl

theorem v119_eq (x0 : (⟨S100000x128, .f32⟩ : BufTy).Contents (Elt Ideal)) (x1 : (⟨S2x1000000, .i32⟩ : BufTy).Contents (Elt Ideal)) (x2 : (⟨S100000, .i32⟩ : BufTy).Contents (Elt Ideal)) (x3 : (⟨S64x100, .i32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (x8 : (⟨S356x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (x12 : (⟨S128x200, .f32⟩ : BufTy).Contents (Elt Ideal)) (x13 : (⟨S200, .f32⟩ : BufTy).Contents (Elt Ideal)) :
    val_main_v119 (F := Ideal) x0 x1 x2 x3 x4 x5 x6 x7 x8 x9 x10 x11 x12 x13
      = head200 (val_main_v105 (F := Ideal) x0 x1 x2 x3 x4 x5 x6 x7) x8 (val_main_v107 (F := Ideal) x9) x10
          (val_main_v112 (F := Ideal) x11) x12 (val_main_v117 (F := Ideal) x13) := by
  unfold val_main_v119 val_main_v116 val_main_v118 head200
  rw [v115_eq]

theorem v124_eq (x0 : (⟨S100000x128, .f32⟩ : BufTy).Contents (Elt Ideal)) (x1 : (⟨S2x1000000, .i32⟩ : BufTy).Contents (Elt Ideal)) (x2 : (⟨S100000, .i32⟩ : BufTy).Contents (Elt Ideal)) (x3 : (⟨S64x100, .i32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (x8 : (⟨S356x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (x14 : (⟨S128x4000, .f32⟩ : BufTy).Contents (Elt Ideal)) (x15 : (⟨S4000, .f32⟩ : BufTy).Contents (Elt Ideal)) :
    val_main_v124 (F := Ideal) x0 x1 x2 x3 x4 x5 x6 x7 x8 x9 x10 x11 x14 x15
      = head4000 (val_main_v105 (F := Ideal) x0 x1 x2 x3 x4 x5 x6 x7) x8 (val_main_v107 (F := Ideal) x9) x10
          (val_main_v112 (F := Ideal) x11) x14 (val_main_v122 (F := Ideal) x15) := by
  unfold val_main_v124 val_main_v121 val_main_v123 head4000
  rw [v115_eq]

end Reference

end Cert.Val

end
-- ==== Proof.Val.Final.lean ====
import proofs.«428478_j66365834658323_2_alg».proof.Proof.KI.Segs
import proofs.«428478_j66365834658323_2_alg».proof.Proof.RefRead
import proofs.«428478_j66365834658323_2_alg».proof.Proof.Val.MatmulRows
import proofs.«428478_j66365834658323_2_alg».proof.Proof.Val.HostChain
import proofs.«428478_j66365834658323_2_alg».proof.Proof.Val.HostChainB
import proofs.«428478_j66365834658323_2_alg».proof.Proof.Val.PoolSum
import proofs.«428478_j66365834658323_2_alg».proof.Proof.Val.PoolArr
import proofs.«428478_j66365834658323_2_alg».proof.Proof.Val.Pool
import proofs.«428478_j66365834658323_2_alg».proof.Proof.Val.Heads
import proofs.«428478_j66365834658323_2_alg».proof.Proof.Val.HeadsRef

set_option maxRecDepth 16384

noncomputable section

namespace Cert.Val

open Idealize.ShloMosaic Idealize.ShloMosaic.TcCoe Idealize.SL.Sem
open Idealize.ShloMosaic.StableHlo (after)
open Cert.KernelIdeal Cert.KernelIdeal.Gen
open Cert.ReferenceIdeal.ReadP

local notation "⟪" r "⟫" => (Proc.devRef (τ := Cert.KernelIdeal.τ) Proc.tc r)

abbrev RC (s : Shape) (e : EltTy) : Type := (⟨s, e⟩ : BufTy).Contents (Elt Ideal)

open Cert.KernelIdeal.Hand

variable (m : (ℓ : Loc nD τ sig) → Buf (Elt Ideal) ℓ) (c : Dev nD)

abbrev arg0 : (RC Cert.ReferenceIdeal.S100000x128 .f32) := m ((c.tc : Thread nD τ).loc main_arg0)
abbrev arg1 : (RC Cert.ReferenceIdeal.S2x1000000 .i32) := m ((c.tc : Thread nD τ).loc main_arg1)
abbrev arg2 : (RC Cert.ReferenceIdeal.S100000 .i32) := m ((c.tc : Thread nD τ).loc main_arg2)
abbrev arg3 : (RC Cert.ReferenceIdeal.S64x100 .i32) := m ((c.tc : Thread nD τ).loc main_arg3)
abbrev arg4 : (RC Cert.ReferenceIdeal.S128x128 .f32) := m ((c.tc : Thread nD τ).loc main_arg4)
abbrev arg5 : (RC Cert.ReferenceIdeal.S128 .f32) := m ((c.tc : Thread nD τ).loc main_arg5)
abbrev arg6 : (RC Cert.ReferenceIdeal.S128x128 .f32) := m ((c.tc : Thread nD τ).loc main_arg6)
abbrev arg7 : (RC Cert.ReferenceIdeal.S128 .f32) := m ((c.tc : Thread nD τ).loc main_arg7)
abbrev arg8 : (RC Cert.ReferenceIdeal.S356x128 .f32) := m ((c.tc : Thread nD τ).loc main_arg8)
abbrev arg9 : (RC Cert.ReferenceIdeal.S128 .f32) := m ((c.tc : Thread nD τ).loc main_arg9)
abbrev arg10 : (RC Cert.ReferenceIdeal.S128x128 .f32) := m ((c.tc : Thread nD τ).loc main_arg10)
abbrev arg11 : (RC Cert.ReferenceIdeal.S128 .f32) := m ((c.tc : Thread nD τ).loc main_arg11)
abbrev arg12 : (RC Cert.ReferenceIdeal.S128x200 .f32) := m ((c.tc : Thread nD τ).loc main_arg12)
abbrev arg13 : (RC Cert.ReferenceIdeal.S200 .f32) := m ((c.tc : Thread nD τ).loc main_arg13)
abbrev arg14 : (RC Cert.ReferenceIdeal.S128x4000 .f32) := m ((c.tc : Thread nD τ).loc main_arg14)
abbrev arg15 : (RC Cert.ReferenceIdeal.S4000 .f32) := m ((c.tc : Thread nD τ).loc main_arg15)

section Keeps
variable (r : Ref sig .tc)

theorem keeps_2_5 (h3 : r ∉ hostOps1_W) (h4 : r ∉ hostOps1_1_W) (h5 : r ∉ hostOps1_2_W) :
    V5 m (outs m) c r = V2 m (outs m) c r :=
  (V5_of m (outs m) c r h5).trans <| (V4_of m (outs m) c r h4).trans (V3_of m (outs m) c r h3)

theorem keeps_6_11 (h7 : r ∉ hostOps2_W) (h8 : r ∉ hostOps2_1_W) (h9 : r ∉ hostOps2_2_W) (h10 : r ∉ hostOps2_3_W)
    (h11 : r ∉ hostOps2_4_W) : V11 m (outs m) c r = V6 m (outs m) c r :=
  (V11_of m (outs m) c r h11).trans <| (V10_of m (outs m) c r h10).trans <| (V9_of m (outs m) c r h9).trans <|
    (V8_of m (outs m) c r h8).trans (V7_of m (outs m) c r h7)

theorem keeps_0_2 (h1 : r ∉ hostOps0_W) (h2 : r ∉ ([main_v30] : List (Ref sig .tc))) : V2 m (outs m) c r = V0 m c r :=
  (V2_of m (outs m) c r h2).trans (V1_of m c r h1)

theorem keeps_2_6 (h3 : r ∉ hostOps1_W) (h4 : r ∉ hostOps1_1_W) (h5 : r ∉ hostOps1_2_W) (h6 : r ∉ ([main_v49] : List (Ref sig .tc))) :
    V6 m (outs m) c r = V2 m (outs m) c r :=
  (V6_of m (outs m) c r h6).trans (keeps_2_5 m c r h3 h4 h5)

theorem keeps_6_12 (h7 : r ∉ hostOps2_W) (h8 : r ∉ hostOps2_1_W) (h9 : r ∉ hostOps2_2_W) (h10 : r ∉ hostOps2_3_W)
    (h11 : r ∉ hostOps2_4_W) (h12 : r ∉ ([main_v77] : List (Ref sig .tc))) : V12 m (outs m) c r = V6 m (outs m) c r :=
  (V12_of m (outs m) c r h12).trans (keeps_6_11 m c r h7 h8 h9 h10 h11)

end Keeps

theorem at1_v5 : V1 m c ⟪main_v5⟫ = val_main_v6 (F := Ideal) (arg1 m c) := host0_v5 (V0 m c)
theorem at1_v6 : V1 m c ⟪main_v6⟫ = val_main_v7 (F := Ideal) (arg1 m c) := host0_v6 (V0 m c)
theorem at1_v26 : V1 m c ⟪main_v26⟫ = val_main_v27 (F := Ideal) (arg1 m c) := host0_v26 (V0 m c)
theorem at1_v29 : (V1 m c ⟪main_v29⟫ : S100000x128.Idx → EReal) = (arg0 m c : S100000x128.Idx → EReal) := host0_v29 (V0 m c)
theorem at1_v27 : (V1 m c ⟪main_v27⟫ : S128x128.Idx → EReal) = (arg4 m c : S128x128.Idx → EReal) := host0_v27 (V0 m c)
theorem at1_v28 : (V1 m c ⟪main_v28⟫ : S128x128.Idx → EReal) = (arg6 m c : S128x128.Idx → EReal) := host0_v28 (V0 m c)

theorem leaves0 (t : Fin cfg0.N) : (dat0 (In0 m) c).after 2 t = k0_pay1 (F := Ideal)
    (((cfg0.win 0).blk t).view.read (Elt Ideal) ((dat0 (In0 m) c).A 0)) (((cfg0.win 1).blk t).view.read (Elt Ideal) ((dat0 (In0 m) c).A 1)) :=
  (after0_2 (In0 m) c t).trans (out0_2_eq _ _)

theorem left0_eq : left0 m c = val_main_v4 (F := Ideal) (arg0 m c) (arg4 m c) := by
  refine (rows0_eq (dat0 (In0 m) c) (leaves0 m c)).trans ?_
  show Host.dotGeneral (F := Ideal) (φ₁ := .f32) (φ₂ := .f32) _ none (V1 m c ⟪main_v29⟫ : S100000x128.Idx → EReal)
    (V1 m c ⟪main_v27⟫ : S128x128.Idx → EReal) = _
  rw [at1_v29, at1_v27]
  rfl

theorem at5_v48 : (V5 m (outs m) c ⟪main_v48⟫ : S100000x128.Idx → EReal)
    = (val_main_v44 (F := Ideal) (arg0 m c) (arg1 m c) (arg4 m c) (arg5 m c) : S100000x128.Idx → EReal) :=
  host1_v48 (V2 m (outs m) c) (arg0 m c) (arg1 m c) (arg4 m c) (arg5 m c)
    ((V2_of m (outs m) c main_v5 (by decide)).trans (at1_v5 m c))
    ((V2_of m (outs m) c main_v6 (by decide)).trans (at1_v6 m c))
    ((V2_of m (outs m) c main_v26 (by decide)).trans (at1_v26 m c))
    ((Out0_v30 m c).trans (left0_eq m c))
    (keeps_0_2 m c main_arg5 (by decide) (by decide))

theorem at5_v28 : (V5 m (outs m) c ⟪main_v28⟫ : S128x128.Idx → EReal) = (arg6 m c : S128x128.Idx → EReal) :=
  ((keeps_2_5 m c main_v28 (by decide) (by decide) (by decide)).trans (V2_of m (outs m) c main_v28 (by decide))).trans (at1_v28 m c)

theorem leaves1 (t : Fin cfg1.N) : (dat1 (In1 m) c).after 2 t = k1_pay1 (F := Ideal)
    (((cfg1.win 0).blk t).view.read (Elt Ideal) ((dat1 (In1 m) c).A 0)) (((cfg1.win 1).blk t).view.read (Elt Ideal) ((dat1 (In1 m) c).A 1)) :=
  (after1_2 (In1 m) c t).trans (out1_2_eq _ _)

theorem left1_eq : left1 m c = val_main_v45 (F := Ideal) (arg0 m c) (arg1 m c) (arg4 m c) (arg5 m c) (arg6 m c) := by
  refine (rows1_eq (dat1 (In1 m) c) (leaves1 m c)).trans ?_
  show Host.dotGeneral (F := Ideal) (φ₁ := .f32) (φ₂ := .f32) _ none (V5 m (outs m) c ⟪main_v48⟫ : S100000x128.Idx → EReal)
    (V5 m (outs m) c ⟪main_v28⟫ : S128x128.Idx → EReal) = _
  rw [at5_v48, at5_v28]
  rfl

theorem at6_v5 : V6 m (outs m) c ⟪main_v5⟫ = val_main_v6 (F := Ideal) (arg1 m c) :=
  ((keeps_2_6 m c main_v5 (by decide) (by decide) (by decide) (by decide)).trans (V2_of m (outs m) c main_v5 (by decide))).trans (at1_v5 m c)
theorem at6_v6 : V6 m (outs m) c ⟪main_v6⟫ = val_main_v7 (F := Ideal) (arg1 m c) :=
  ((keeps_2_6 m c main_v6 (by decide) (by decide) (by decide) (by decide)).trans (V2_of m (outs m) c main_v6 (by decide))).trans (at1_v6 m c)
theorem at6_v26 : V6 m (outs m) c ⟪main_v26⟫ = val_main_v27 (F := Ideal) (arg1 m c) :=
  ((keeps_2_6 m c main_v26 (by decide) (by decide) (by decide) (by decide)).trans (V2_of m (outs m) c main_v26 (by decide))).trans (at1_v26 m c)
theorem at6_v49 : V6 m (outs m) c ⟪main_v49⟫ = val_main_v45 (F := Ideal) (arg0 m c) (arg1 m c) (arg4 m c) (arg5 m c) (arg6 m c) :=
  (Out1_v49 m c).trans (left1_eq m c)
theorem at6_arg7 : V6 m (outs m) c ⟪main_arg7⟫ = arg7 m c :=
  (keeps_2_6 m c main_arg7 (by decide) (by decide) (by decide) (by decide)).trans (keeps_0_2 m c main_arg7 (by decide) (by decide))
theorem at6_arg2 : V6 m (outs m) c ⟪main_arg2⟫ = arg2 m c :=
  (keeps_2_6 m c main_arg2 (by decide) (by decide) (by decide) (by decide)).trans (keeps_0_2 m c main_arg2 (by decide) (by decide))

theorem at11_v66 : V11 m (outs m) c ⟪main_v66⟫ = val_main_v85 (F := Ideal) (arg0 m c) (arg1 m c) (arg4 m c) (arg5 m c) (arg6 m c) (arg7 m c) :=
  host2_final_v66 (V6 m (outs m) c) _ _ _ _ _ _ (at6_v5 m c) (at6_v6 m c) (at6_v26 m c) (at6_v49 m c) (at6_arg7 m c)
theorem at11_v72 : V11 m (outs m) c ⟪main_v72⟫ = val_main_v97 (F := Ideal) (arg2 m c) :=
  host2_final_v72 (V6 m (outs m) c) _ (at6_arg2 m c)
theorem at11_v74 : (V11 m (outs m) c ⟪main_v74⟫ : S100352x128.Idx → EReal)
    = pad S100352x128 ![0, 0] ![352, 0] ![0, 0]
        (val_main_v84 (F := Ideal) (arg0 m c) (arg1 m c) (arg4 m c) (arg5 m c) (arg6 m c) (arg7 m c) : S100000x128.Idx → EReal)
        (sitofp (F := Ideal) .bf16 (constantI S_ 32 0#32) : S_.Idx → EReal) pads_S100000x128_S100352x128_03520_000 h_S_ :=
  host2_final_v74 (V6 m (outs m) c) _ _ _ _ _ _ (at6_v5 m c) (at6_v6 m c) (at6_v26 m c) (at6_v49 m c) (at6_arg7 m c)
theorem at11_v76 : V11 m (outs m) c ⟪main_v76⟫
    = shapeCast S1x100352
        (pad S100352 ![0] ![352] ![0] (arg2 m c : (⟨S100000, .i32⟩ : BufTy).Contents (Elt Ideal))
          (constantI S_ 32 4294967295#32 : (⟨S_, .i32⟩ : BufTy).Contents (Elt Ideal)) pads_S100000_S100352_03520 h_S_)
        shapeCasts_S100352_S1x100352 :=
  host2_final_v76 (V6 m (outs m) c) _ (at6_arg2 m c)

theorem left2_eq : left2 m c = val_main_v94 (F := Ideal) (arg0 m c) (arg1 m c) (arg2 m c) (arg4 m c) (arg5 m c) (arg6 m c) (arg7 m c) := by
  refine (pool_eq (In2 m) c).trans ?_
  show poolSum (V11 m (outs m) c ⟪main_v76⟫) (V11 m (outs m) c ⟪main_v74⟫ : S100352x128.Idx → EReal) = _
  rw [at11_v76, at11_v74, pool_law_read]
  rfl

theorem at12_v66 : V12 m (outs m) c ⟪main_v66⟫ = val_main_v85 (F := Ideal) (arg0 m c) (arg1 m c) (arg4 m c) (arg5 m c) (arg6 m c) (arg7 m c) :=
  (V12_of m (outs m) c main_v66 (by decide)).trans (at11_v66 m c)
theorem at12_v72 : V12 m (outs m) c ⟪main_v72⟫ = val_main_v97 (F := Ideal) (arg2 m c) :=
  (V12_of m (outs m) c main_v72 (by decide)).trans (at11_v72 m c)
theorem at12_v77 : V12 m (outs m) c ⟪main_v77⟫
    = val_main_v94 (F := Ideal) (arg0 m c) (arg1 m c) (arg2 m c) (arg4 m c) (arg5 m c) (arg6 m c) (arg7 m c) :=
  (Out2_v77 m c).trans (left2_eq m c)

theorem at12_arg (r : Ref sig .tc) (h1 : r ∉ hostOps0_W) (h2 : r ∉ ([main_v30] : List (Ref sig .tc))) (h3 : r ∉ hostOps1_W)
    (h4 : r ∉ hostOps1_1_W) (h5 : r ∉ hostOps1_2_W) (h6 : r ∉ ([main_v49] : List (Ref sig .tc))) (h7 : r ∉ hostOps2_W)
    (h8 : r ∉ hostOps2_1_W) (h9 : r ∉ hostOps2_2_W) (h10 : r ∉ hostOps2_3_W) (h11 : r ∉ hostOps2_4_W)
    (h12 : r ∉ ([main_v77] : List (Ref sig .tc))) : V12 m (outs m) c r = V0 m c r :=
  (keeps_6_12 m c r h7 h8 h9 h10 h11 h12).trans <| (keeps_2_6 m c r h3 h4 h5 h6).trans (keeps_0_2 m c r h1 h2)

theorem at13_arg (r : Ref sig .tc) (h1 : r ∉ hostOps0_W) (h2 : r ∉ ([main_v30] : List (Ref sig .tc))) (h3 : r ∉ hostOps1_W)
    (h4 : r ∉ hostOps1_1_W) (h5 : r ∉ hostOps1_2_W) (h6 : r ∉ ([main_v49] : List (Ref sig .tc))) (h7 : r ∉ hostOps2_W)
    (h8 : r ∉ hostOps2_1_W) (h9 : r ∉ hostOps2_2_W) (h10 : r ∉ hostOps2_3_W) (h11 : r ∉ hostOps2_4_W)
    (h12 : r ∉ ([main_v77] : List (Ref sig .tc))) (h13 : r ∉ hostOps3_W) : V13 m (outs m) c r = V0 m c r :=
  (V13_of m (outs m) c r h13).trans (at12_arg m c r h1 h2 h3 h4 h5 h6 h7 h8 h9 h10 h11 h12)

theorem at13_v85 : V13 m (outs m) c ⟪main_v85⟫
    = val_main_v105 (F := Ideal) (arg0 m c) (arg1 m c) (arg2 m c) (arg3 m c) (arg4 m c) (arg5 m c) (arg6 m c) (arg7 m c) :=
  hostOps3_embedding (V12 m (outs m) c) _ _ _ _ _ _ _ _ (at12_v66 m c) (at12_v72 m c) (at12_v77 m c)
    (at12_arg m c main_arg3 (by decide) (by decide) (by decide) (by decide) (by decide) (by decide) (by decide) (by decide) (by decide) (by decide) (by decide) (by decide))
theorem at13_v86 : V13 m (outs m) c ⟪main_v86⟫ = val_main_v107 (F := Ideal) (arg9 m c) :=
  hostOps3_bias1 (V12 m (outs m) c) _
    (at12_arg m c main_arg9 (by decide) (by decide) (by decide) (by decide) (by decide) (by decide) (by decide) (by decide) (by decide) (by decide) (by decide) (by decide))
theorem at13_v87 : V13 m (outs m) c ⟪main_v87⟫ = val_main_v112 (F := Ideal) (arg11 m c) :=
  hostOps3_bias2 (V12 m (outs m) c) _
    (at12_arg m c main_arg11 (by decide) (by decide) (by decide) (by decide) (by decide) (by decide) (by decide) (by decide) (by decide) (by decide) (by decide) (by decide))
theorem at13_v88 : V13 m (outs m) c ⟪main_v88⟫ = val_main_v117 (F := Ideal) (arg13 m c) :=
  hostOps3_bias3 (V12 m (outs m) c) _
    (at12_arg m c main_arg13 (by decide) (by decide) (by decide) (by decide) (by decide) (by decide) (by decide) (by decide) (by decide) (by decide) (by decide) (by decide))
theorem at13_v89 : V13 m (outs m) c ⟪main_v89⟫ = val_main_v122 (F := Ideal) (arg15 m c) :=
  hostOps3_bias4 (V12 m (outs m) c) _
    (at12_arg m c main_arg15 (by decide) (by decide) (by decide) (by decide) (by decide) (by decide) (by decide) (by decide) (by decide) (by decide) (by decide) (by decide))
theorem at13_arg8 : V13 m (outs m) c ⟪main_arg8⟫ = arg8 m c :=
  at13_arg m c main_arg8 (by decide) (by decide) (by decide) (by decide) (by decide) (by decide) (by decide) (by decide) (by decide) (by decide) (by decide) (by decide) (by decide)
theorem at13_arg10 : V13 m (outs m) c ⟪main_arg10⟫ = arg10 m c :=
  at13_arg m c main_arg10 (by decide) (by decide) (by decide) (by decide) (by decide) (by decide) (by decide) (by decide) (by decide) (by decide) (by decide) (by decide) (by decide)
theorem at13_arg12 : V13 m (outs m) c ⟪main_arg12⟫ = arg12 m c :=
  at13_arg m c main_arg12 (by decide) (by decide) (by decide) (by decide) (by decide) (by decide) (by decide) (by decide) (by decide) (by decide) (by decide) (by decide) (by decide)
theorem at13_arg14 : V13 m (outs m) c ⟪main_arg14⟫ = arg14 m c :=
  at13_arg m c main_arg14 (by decide) (by decide) (by decide) (by decide) (by decide) (by decide) (by decide) (by decide) (by decide) (by decide) (by decide) (by decide) (by decide)

section Heads
variable (V : (c : Dev nD) → (b : Ref sig .tc) → Buf (Elt Ideal) ((c : Thread nD τ).loc b))

theorem leaves3a (t : Fin cfg3.N) : (dat3 V c).after 9 t = k3_pay3 (F := Ideal)
    (((cfg3.win 0).blk t).view.read (Elt Ideal) ((dat3 V c).A 0)) (((cfg3.win 1).blk t).view.read (Elt Ideal) ((dat3 V c).A 1))
    (((cfg3.win 2).blk t).view.read (Elt Ideal) ((dat3 V c).A 2)) (((cfg3.win 3).blk t).view.read (Elt Ideal) ((dat3 V c).A 3))
    (((cfg3.win 4).blk t).view.read (Elt Ideal) ((dat3 V c).A 4)) (((cfg3.win 5).blk t).view.read (Elt Ideal) ((dat3 V c).A 5))
    (((cfg3.win 6).blk t).view.read (Elt Ideal) ((dat3 V c).A 6)) :=
  (after3_9 V c t).trans (out3_9_eq _ _ _ _ _ _ _)

theorem leaves3b (t : Fin cfg3.N) : (dat3 V c).after 10 t = k3_pay1 (F := Ideal) (k3_pay4 (F := Ideal)
    (((cfg3.win 0).blk t).view.read (Elt Ideal) ((dat3 V c).A 0)) (((cfg3.win 1).blk t).view.read (Elt Ideal) ((dat3 V c).A 1))
    (((cfg3.win 2).blk t).view.read (Elt Ideal) ((dat3 V c).A 2)) (((cfg3.win 3).blk t).view.read (Elt Ideal) ((dat3 V c).A 3))
    (((cfg3.win 4).blk t).view.read (Elt Ideal) ((dat3 V c).A 4)) (((cfg3.win 7).blk t).view.read (Elt Ideal) ((dat3 V c).A 7)))
    (((cfg3.win 8).blk t).view.read (Elt Ideal) ((dat3 V c).A 8)) :=
  (after3_10 V c t).trans (out3_10_eq _ _ _ _ _ _ _)

theorem head200_at : (dat3 V c).arrAt 9 cfg3.N
    = head200 (V c main_v85) (V c main_arg8) (V c main_v86) (V c main_arg10) (V c main_v87) (V c main_arg12) (V c main_v88) :=
  head200_eq (dat3 V c) (leaves3a c V)

theorem head4000_at : (dat3 V c).arrAt 10 cfg3.N
    = head4000 (V c main_v85) (V c main_arg8) (V c main_v86) (V c main_arg10) (V c main_v87) (V c main_arg14) (V c main_v89) :=
  head4000_eq (dat3 V c) (leaves3b c V)

end Heads

theorem in3_eq (r : Ref sig .tc) : In3 m c r = V13 m (outs m) c r := (congrFun (V13_outs m c) r).symm

theorem left3a_eq : left3a m c = val_main_v119 (F := Ideal) (arg0 m c) (arg1 m c) (arg2 m c) (arg3 m c) (arg4 m c) (arg5 m c) (arg6 m c)
    (arg7 m c) (arg8 m c) (arg9 m c) (arg10 m c) (arg11 m c) (arg12 m c) (arg13 m c) := by
  refine (head200_at c (In3 m)).trans ?_
  rw [in3_eq m c main_v85, in3_eq m c main_arg8, in3_eq m c main_v86, in3_eq m c main_arg10, in3_eq m c main_v87,
    in3_eq m c main_arg12, in3_eq m c main_v88,
    at13_v85, at13_arg8, at13_v86, at13_arg10, at13_v87, at13_arg12, at13_v88]
  exact (v119_eq _ _ _ _ _ _ _ _ _ _ _ _ _ _).symm

theorem left3b_eq : left3b m c = val_main_v124 (F := Ideal) (arg0 m c) (arg1 m c) (arg2 m c) (arg3 m c) (arg4 m c) (arg5 m c) (arg6 m c)
    (arg7 m c) (arg8 m c) (arg9 m c) (arg10 m c) (arg11 m c) (arg14 m c) (arg15 m c) := by
  refine (head4000_at c (In3 m)).trans ?_
  rw [in3_eq m c main_v85, in3_eq m c main_arg8, in3_eq m c main_v86, in3_eq m c main_arg10, in3_eq m c main_v87,
    in3_eq m c main_arg14, in3_eq m c main_v89,
    at13_v85, at13_arg8, at13_v86, at13_arg10, at13_v87, at13_arg14, at13_v89]
  exact (v124_eq _ _ _ _ _ _ _ _ _ _ _ _ _ _).symm

theorem result0 : V15 m (outs m) c ⟪main_v103⟫
    = val_main_v136 (F := Ideal) (arg0 m c) (arg1 m c) (arg2 m c) (arg3 m c) (arg4 m c) (arg5 m c) (arg6 m c) (arg7 m c)
        (arg8 m c) (arg9 m c) (arg10 m c) (arg11 m c) (arg12 m c) (arg13 m c) :=
  hostOps4_softmax1 (V14 m (outs m) c) _ _ _ _ _ _ _ _ _ _ _ _ _ _ ((Out3_v90_0 m c).trans (left3a_eq m c))

theorem result1 : V15 m (outs m) c ⟪main_v114⟫
    = val_main_v147 (F := Ideal) (arg0 m c) (arg1 m c) (arg2 m c) (arg3 m c) (arg4 m c) (arg5 m c) (arg6 m c) (arg7 m c)
        (arg8 m c) (arg9 m c) (arg10 m c) (arg11 m c) (arg14 m c) (arg15 m c) :=
  hostOps4_softmax2 (V14 m (outs m) c) _ _ _ _ _ _ _ _ _ _ _ _ _ _ ((Out3_v90_1 m c).trans (left3b_eq m c))

end Cert.Val

end
-- ==== Proof.lean ====
import proofs.«428478_j66365834658323_2_alg».proof.Defs
import proofs.«428478_j66365834658323_2_alg».proof.Proof.Gen.Kernel
import proofs.«428478_j66365834658323_2_alg».proof.Proof.Gen.KernelIdeal
import proofs.«428478_j66365834658323_2_alg».proof.Proof.Gen.ReferenceIdeal
import proofs.«428478_j66365834658323_2_alg».proof.Proof.Gen.Pre_finite_inputs
import proofs.«428478_j66365834658323_2_alg».proof.Proof.K.Segs
import proofs.«428478_j66365834658323_2_alg».proof.Proof.KI.Run
import proofs.«428478_j66365834658323_2_alg».proof.Proof.RefRun.Run
import proofs.«428478_j66365834658323_2_alg».proof.Proof.Val.Final
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

-- The reference's frame is its run with the two results forgotten.
theorem frame_ri : Cert.frame_ReferenceIdeal := fun m ρ _ =>
  (θ_run Cert.ReferenceIdeal.defs _ _).mono (fun _ h c => (h c).2.2) (Cert.ReferenceIdeal.RunH.run (F := Ideal) m ρ)

-- From arguments that agree, both runs end at the same two stages of those arguments.
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.ReferenceIdeal.RunH.run (F := Ideal) m' ρ')
  obtain ⟨h0, h1, h2, h3, h4, h5, h6, h7, h8, h9, h10, h11, h12, h13, h14, h15⟩ := hagree c
  refine ⟨(h c).1.trans ?_, (h c).2.1.trans ?_, (h c).2.2⟩
  · rw [h0, h1, h2, h3, h4, h5, h6, h7, h8, h9, h10, h11, h12, h13]
    exact (Cert.Val.result0 m c).symm
  · rw [h0, h1, h2, h3, h4, h5, h6, h7, h8, h9, h10, h11, h14, h15]
    exact (Cert.Val.result1 m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
